-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1x1 : Shape := ⟨2, ![1, 1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1x1 : S_.BroadcastsInDim S1x1 (![] : Fin 0 → Fin S1x1.rank)
  reducesTo_S1x1_S_d0_1 : S1x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128 .f32) (main_arg10 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S1600000 .f32) (main_arg2 : FVec F S1x1 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : IVec S1600000 32) (main_arg12 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S1600000 : Shape := ⟨1, ![1600000]⟩
abbrev S1x1 : Shape := ⟨2, ![1, 1]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 59
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1x1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg9_0 : Ref sig .tc := ⟨.vmem, 24, rfl⟩
abbrev cc1_scratch0 : Ref sig .tc := ⟨.vmem, 25, rfl⟩
abbrev cc1_scratch1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem9_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v50 : BitVec 1 := Scalar.cmpi .eq arg0 c19_i32
  let v51 : BitVec 32 := Scalar.extui v50
  let c0_i32_28 : BitVec 32 := 0#32
  let v52 : BitVec 1 := Scalar.cmpi .ne v51 c0_i32_28
  v52

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x1_S1x128_0_1 : S1x1.BroadcastsInDim S1x128 (![0, 1] : Fin 2 → Fin S1x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S5000x128_S128 : S5000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v27_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1x1 : Shape := ⟨2, ![1, 1]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S1600000, .f32⟩
  | 2 => ⟨S1x1, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S1600000x1, .f32⟩
  | 23 => ⟨S1600000x128, .f32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S100000x128, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call1_cst : Ref sig .tc := ⟨.hbm, 80, rfl⟩
abbrev main_call1_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_5 : Ref sig .tc := ⟨.hbm, 87, rfl⟩
abbrev main_v44 : Ref sig .tc := ⟨.hbm, 88, rfl⟩
abbrev main_cst_6 : Ref sig .tc := ⟨.hbm, 89, rfl⟩
abbrev main_v45 : Ref sig .tc := ⟨.hbm, 90, rfl⟩
abbrev main_v46 : Ref sig .tc := ⟨.hbm, 91, rfl⟩
abbrev main_c_7 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_8 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_call3_cst : Ref sig .tc := ⟨.hbm, 131, rfl⟩
abbrev main_call3_v0 : Ref sig .tc := ⟨.hbm, 132, rfl⟩
abbrev main_v63 : Ref sig .tc := ⟨.hbm, 133, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x1_S100000x128_0_1 : S1x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Whole.lean ====
import Idealize.ShloMosaic.Lib.Pipeline.FrameBody
import Idealize.ShloMosaic.Lib.Pipeline.Value

noncomputable section

namespace Cert.Whole

open Idealize.ShloMosaic Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type} [∀ e, Nonempty (Val e)]
variable {Ix : Type} [DecidableEq Ix] {Name : Type} [DecidableEq Name] {U : Type} [URA U] {Lvl : Type}
variable {κ : Kind} {sp : Space} {S : Shape} {e : EltTy}

local notation "𝕄" => MT nD τ sig Ix Val Name U Lvl

/-- Both offsets of an access through all of a rank-two buffer are zero. -/
theorem zeros : (![0, 0] : Fin 2 → ℕ) = fun _ => 0 := funext fun a => by fin_cases a <;> rfl

/-- The last store through the rectangle of all of a buffer decides what the buffer reads. -/
theorem read_store (v : View sig κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

/-- A load through that rectangle, from contents of a whole buffer that read `X`, reads `X`. -/
theorem load {m : Memref sig κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hz]

/-- A buffer held at contents that read `X` is owned at `X`. -/
theorem owns_of_read (c : Thread nD τ) (m : Memref sig c.2.kind sp S e) (q : PosShare TreeShare)
    {f : m.view.ty.Contents Val} {X : S.Idx → Val e} (h : m.view.read Val f = X) :
    (m.view.loc c ↦[m.view.set]{q} f : sProp 𝕄) ⊢ owns c m q X := by
  unfold owns; iintro H; iexists f; isplitr
  · ipureintro; exact h
  · iexact H

/-- A whole buffer is owned at `X` exactly when it is held at the contents that read `X`. -/
theorem owns_unread (c : Dev nD) {m : Memref sig .tc sp S e} (h : m.IsWhole) (X : S.Idx → Val e) :
    (owns (c.tc (τ := τ)) m fullShare X : sProp 𝕄) = (m.view.loc c.tc ↦[m.view.set]{fullShare} h.unread X) := by
  have h₁ : (owns (c.tc (τ := τ)) m fullShare X : sProp 𝕄) ⊢ (m.view.loc c.tc ↦[m.view.set]{fullShare} h.unread X) := by
    unfold owns; iintro ⟨%f, %hf, H⟩; obtain rfl := h.eq_unread hf; iexact H
  exact BI.equiv_iff.mp ⟨h₁, owns_of_read c.tc m fullShare (h.read_unread X)⟩

/-- Stores into a whole buffer that end with one through all of it leave the contents that read what it wrote. -/
theorem stored_unread {m : Memref sig κ sp S e} (h : m.IsWhole) (f : m.view.ty.Contents Val) {off : Fin S.rank → ℕ}
    (hz : off = fun _ => 0) (inb : ∀ a, off a + S.size a ≤ S.size a) (w : S.Idx → Val e) (L : List (View.Piece Val S e)) :
    m.view.writes Val f ((⟨Rect.unit off S.size inb, w⟩ : View.Piece Val S e) :: L) = h.unread w :=
  h.eq_unread (read_store m.view f hz inb w L)

/-- A load through all of a buffer, after stores that end with one through all of it, reads what that store wrote. -/
theorem readCov_store (v : View sig κ sp S e) {off : Fin S.rank → ℕ} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero hz inb y⟩), View.canon_cons_unit_zero hz,
    View.ld_unit_zero hz]

end Cert.Whole

end
-- ==== Proof.FrameKernel.R0Run.lean ====
import proofs.«125831_j1151051235416_1_alg».proof.Proof.Whole
import proofs.«125831_j1151051235416_1_alg».proof.Proof.Gen.Kernel.Launch
import proofs.«125831_j1151051235416_1_alg».proof.Proof.Gen.Kernel.Skeleton
import proofs.«125831_j1151051235416_1_alg».proof.Proof.Gen.Kernel.Points
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Facts₀ Cert.Kernel.Facts Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

-- The first condition holds at the first point only, the second at the last point only.
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 19 :=
  (by decide +kernel : ∀ t : Fin grid0.N, cond0_1 (grid0.coords t) ↔ t.val = 19)

theorem idle0 : ∀ (w : Fin cfg0.W) (t : Fin cfg0.N), 6 ≤ w.val →
    (¬cond0_1 (grid0.coords t) → cfg0.idle w (grid0.coords t) = true ∧ (cfg0.win w).flush t = false)
      ∧ (cond0_1 (grid0.coords t) → cfg0.idle w (grid0.coords t) = false) := by decide +kernel

-- The body at any grid point: the affine map of the inputs is stored, the accumulators (set to zero first at the first point) take its column sums, and at the last point they are copied out.
set_option maxHeartbeats 1000000 in
theorem run0 (c : Dev nD) (i : grid0.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (x1 x2 : Vec F S5000x128 .f32) (x3 : Vec F S1x128 .f32) (x4 : Vec F S128x128 .f32) (x5 : Vec F S1x128 .f32)
    (x6 : Vec F S5000x128 .f32) (x7 x8 a9 a10 : Vec F S1x128 .f32) (E : Set ℕ) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ owns c arg8 fullShare x8 ∗ owns c arg9 fullShare a9 ∗ owns c arg10 fullShare a10
        ∗ (iprop(owns c arg1 fullShare x1 ∗ owns c arg2 fullShare x2 ∗ owns c arg3 fullShare x3
            ∗ owns c arg4 fullShare x4 ∗ owns c arg5 fullShare x5 ∗ owns c arg6 fullShare (k0_pay4 x1 x3 x2 x4 x5)
            ∗ owns c arg7 fullShare (if cond0_1 i then (k0_pay5 x1 x3 x2 x4 x5 (if cond0_0 i then k0_pay2 else a9)) else x7)
            ∗ owns c arg8 fullShare (if cond0_1 i then (k0_pay1 (k0_pay6 x1 x3 x2 x4 x5 (if cond0_0 i then k0_pay3 else a10))) else x8)
            ∗ owns c arg9 fullShare (k0_pay5 x1 x3 x2 x4 x5 (if cond0_0 i then k0_pay2 else a9))
            ∗ owns c arg10 fullShare (k0_pay1 (k0_pay6 x1 x3 x2 x4 x5 (if cond0_0 i then k0_pay3 else a10)))) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  simp only [Whole.owns_unread c harg1, Whole.owns_unread c harg2, Whole.owns_unread c harg3, Whole.owns_unread c harg4, Whole.owns_unread c harg5,
    Whole.owns_unread c harg6, Whole.owns_unread c harg7, Whole.owns_unread c harg8, Whole.owns_unread c harg9, Whole.owns_unread c harg10]
  simp only [cc0__layer1_kernel_eq_skeleton]; unfold cc0__layer1_kernel_skel
  simp only [k0_part1_eq_skeleton]
  iintro ⟨H1, H2, H3, H4, H5, H6, H7, H8, H9, H10, Hk⟩
  by_cases hc0 : cond0_0 i <;> by_cases hc1 : cond0_1 i <;>
  · sl_exec (disch := first | exact hc0 | exact hc1)
    sl_step
    iapply Hk
    sl_unfold_words
    simp only [cond0_0, cond0_1, hc0, hc1, ↓reduceIte, Whole.stored_unread (S := S5000x128) harg6 _ Whole.zeros, Whole.stored_unread (S := S1x128) harg7 _ Whole.zeros,
      Whole.stored_unread (S := S1x128) harg8 _ Whole.zeros, Whole.stored_unread (S := S1x128) harg9 _ Whole.zeros, Whole.stored_unread (S := S1x128) harg10 _ Whole.zeros,
      Whole.readCov_store (S := S1x128) _ Whole.zeros, Whole.load (Val := Elt F) (S := S1x128) _ Whole.zeros, Whole.load (Val := Elt F) (S := S5000x128) _ Whole.zeros,
      Whole.load (Val := Elt F) (S := S128x128) _ Whole.zeros]
    iframe

end Cert.Kernel.Hand

end
-- ==== Proof.FrameKernel.R0.lean ====
import proofs.«125831_j1151051235416_1_alg».proof.Proof.FrameKernel.R0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Facts₀ Cert.Kernel.Facts Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xa0 (c : Dev nD) (t : Fin cfg0.N) : Vec F S5000x128 .f32 := iblk0 V c 0 t
abbrev xv0 (c : Dev nD) (t : Fin cfg0.N) : Vec F S5000x128 .f32 := iblk0 V c 1 t
abbrev xe0 (c : Dev nD) (t : Fin cfg0.N) : Vec F S1x128 .f32 := iblk0 V c 2 t
abbrev xw0 (c : Dev nD) (t : Fin cfg0.N) : Vec F S128x128 .f32 := iblk0 V c 3 t
abbrev xb0 (c : Dev nD) (t : Fin cfg0.N) : Vec F S1x128 .f32 := iblk0 V c 4 t

-- What point `t` stores into window 5: the affine map of the point's row block.
def hp0 (c : Dev nD) (t : Fin cfg0.N) : Vec F S5000x128 .f32 :=
  k0_pay4 (xa0 V c t) (xe0 V c t) (xv0 V c t) (xw0 V c t) (xb0 V c t)

-- The two accumulators after the point at position `n`: the column sums of the blocks so far and of their squares.
def acc0 (c : Dev nD) : (n : ℕ) → n < cfg0.N → Vec F S1x128 .f32 × Vec F S1x128 .f32
  | 0, hn =>
    (k0_pay5 (xa0 V c ⟨0, hn⟩) (xe0 V c ⟨0, hn⟩) (xv0 V c ⟨0, hn⟩) (xw0 V c ⟨0, hn⟩) (xb0 V c ⟨0, hn⟩) (k0_pay2 (F := F)),
     k0_pay1 (k0_pay6 (xa0 V c ⟨0, hn⟩) (xe0 V c ⟨0, hn⟩) (xv0 V c ⟨0, hn⟩) (xw0 V c ⟨0, hn⟩) (xb0 V c ⟨0, hn⟩) (k0_pay3 (F := F))))
  | n + 1, hn =>
    (k0_pay5 (xa0 V c ⟨n + 1, hn⟩) (xe0 V c ⟨n + 1, hn⟩) (xv0 V c ⟨n + 1, hn⟩) (xw0 V c ⟨n + 1, hn⟩) (xb0 V c ⟨n + 1, hn⟩) (acc0 c n (Nat.lt_of_succ_lt hn)).1,
     k0_pay1 (k0_pay6 (xa0 V c ⟨n + 1, hn⟩) (xe0 V c ⟨n + 1, hn⟩) (xv0 V c ⟨n + 1, hn⟩) (xw0 V c ⟨n + 1, hn⟩) (xb0 V c ⟨n + 1, hn⟩) (acc0 c n (Nat.lt_of_succ_lt hn)).2))

abbrev scM0_0 : Memref sig .tc .vmem S1x128 .f32 := Memref.whole cc0_scratch0
abbrev scM0_1 : Memref sig .tc .vmem S1x128 .f32 := Memref.whole cc0_scratch1

-- The rest of the invariant: all it holds besides the two accumulators.
def rest0 (c : Dev nD) : sProp 𝕄 :=
  iprop(Pipeline.scopedRestBut spec0 c [cc0_scratch0, cc0_scratch1] ∗ ∃ r, prngReg c r)

-- The invariant before position `n`: the accumulators at some contents, from the second point on at what the point before left.
def PhiS0 (c : Dev nD) (n : ℕ) (h : n ≤ cfg0.N) : sProp 𝕄 :=
  iprop(∃ a, ∃ b, ⌜∀ hz : n ≠ 0, a = (acc0 V c (n - 1) (by omega)).1 ∧ b = (acc0 V c (n - 1) (by omega)).2⌝
    ∗ owns c scM0_0 fullShare a ∗ owns c scM0_1 fullShare b ∗ rest0 c)

-- The proof data: each input keeps its block, window 5 takes the affine map of the block, windows 6 and 7 the accumulators.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hp0 V c t
    | ⟨6, _⟩ => (acc0 V c t.val t.isLt).1
    | ⟨7, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_5 (c : Dev nD) (t : Fin cfg0.N) : (dat0 V c).after 5 t = hp0 V c t := by dsimp only [dat0]
theorem after0_6 (c : Dev nD) (t : Fin cfg0.N) : (dat0 V c).after 6 t = (acc0 V c t.val t.isLt).1 := by dsimp only [dat0]
theorem after0_7 (c : Dev nD) (t : Fin cfg0.N) : (dat0 V c).after 7 t = (acc0 V c t.val t.isLt).2 := by dsimp only [dat0]

theorem sep_reassoc0 (A B C P : sProp 𝕄) : iprop(((A ∗ B) ∗ C) ∗ P) = iprop(A ∗ B ∗ (C ∗ P)) := by
  have h₁ : iprop(((A ∗ B) ∗ C) ∗ P) ⊢ iprop(A ∗ B ∗ (C ∗ P)) := by iintro ⟨⟨⟨HA, HB⟩, HC⟩, HP⟩; iframe
  have h₂ : iprop(A ∗ B ∗ (C ∗ P)) ⊢ iprop(((A ∗ B) ∗ C) ∗ P) := by iintro ⟨HA, HB, HC, HP⟩; iframe
  exact BI.equiv_iff.mp ⟨h₁, h₂⟩

-- The invariant the launch hands over, with the two accumulators apart.
theorem PhiA0_eq (c : Dev nD) :
    (Pipeline.ΦA spec0 c : sProp 𝕄)
      = iprop((∃ d, owns c scM0_0 fullShare d) ∗ (∃ d, owns c scM0_1 fullShare d) ∗ rest0 c) := by
  unfold Pipeline.ΦA rest0
  rw [Pipeline.scopedRest_split_of_list spec0 c [cc0_scratch0, cc0_scratch1] (by decide) (by decide)]
  simp only [scM0_0, scM0_1, owns_whole, bigSepL_cons_cons, bigSepL_singleton]
  exact sep_reassoc0 _ _ _ _

-- A point adds its column sums to what the point before left, the first point to zero.
theorem acc0_eq (c : Dev nD) (t : Fin cfg0.N) (a b : Vec F S1x128 .f32)
    (h : ∀ hz : t.val ≠ 0, a = (acc0 V c (t.val - 1) (by omega)).1 ∧ b = (acc0 V c (t.val - 1) (by omega)).2) :
    (acc0 V c t.val t.isLt).1 = k0_pay5 (xa0 V c t) (xe0 V c t) (xv0 V c t) (xw0 V c t) (xb0 V c t) (if cond0_0 (grid0.coords t) then k0_pay2 else a)
    ∧ (acc0 V c t.val t.isLt).2 = k0_pay1 (k0_pay6 (xa0 V c t) (xe0 V c t) (xv0 V c t) (xw0 V c t) (xb0 V c t) (if cond0_0 (grid0.coords t) then k0_pay3 else b)) := by
  obtain ⟨n, hn⟩ := t
  cases n with
  | zero => rw [if_pos ((hcond0_0 ⟨0, hn⟩).mpr rfl), if_pos ((hcond0_0 ⟨0, hn⟩).mpr rfl)]; exact ⟨rfl, rfl⟩
  | succ n =>
    obtain ⟨rfl, rfl⟩ := h (Nat.succ_ne_zero n)
    have hc : ¬cond0_0 (grid0.coords ⟨n + 1, hn⟩) := fun h => absurd ((hcond0_0 _).mp h) (Nat.succ_ne_zero n)
    rw [if_neg hc, if_neg hc]; exact ⟨rfl, rfl⟩

-- The body leaves every input's block in place.
theorem before0 (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) ∧ (∀ d, (dat0 V c).before 4 t d = iblk0 V c 4 t) := by
  refine ⟨?_, ?_, ?_, ?_, ?_⟩ <;> intro d <;>
  exact ((dat0 V c).before_in_eq_fetched _ rfl (fun _ => rfl) (fun _ _ _ => rfl) (fun _ => rfl) t d).trans rfl

-- The two column-sum results are stored at the last point and untouched before it.
theorem leaves0_last (c : Dev nD) (t : Fin cfg0.N) (w : Fin cfg0.W) (hw : 6 ≤ w.val) (d) (X) (hX : (dat0 V c).after w t = X) :
    owns c ((cfg0.win w).stage (cfg0.slots t w)) fullShare (if cond0_1 (grid0.coords t) then X else (dat0 V c).before w t d)
      ⊢ (dat0 V c).leavesExact w t := by
  subst hX
  by_cases h : cond0_1 (grid0.coords t)
  · rw [if_pos h]; unfold Dat.leavesExact; rw [(idle0 w t hw).2 h]
  · rw [if_neg h, Dat.leavesExact_idle _ w t ((idle0 w t hw).1 h).1 ((idle0 w t hw).1 h).2]
    iintro H; iexists _; iexact H

-- What the body finds in window `w`'s buffer at point `t`.
def found0 (c : Dev nD) (t : Fin cfg0.N) (w : Fin cfg0.W) : sProp 𝕄 :=
  iprop(∃ d, owns c ((cfg0.win w).stage (cfg0.slots t w)) fullShare ((dat0 V c).before w t d))

-- The body meets its obligation at every point: the invariant hands over the accumulators and takes them back one point on.
theorem sound_body0 (c : Dev nD) (t : Fin cfg0.N) :
    iprop((dat0 V c).Φ t.castSucc ∗ (dat0 V c).owesAt () t.castSucc ∗ found0 V c t 0 ∗ found0 V c t 1 ∗ found0 V c t 2 ∗ found0 V c t 3
        ∗ found0 V c t 4 ∗ found0 V c t 5 ∗ found0 V c t 6 ∗ found0 V c t 7)
      ⊢ wp frame (wpE (defs₀ (F := F)) Variants.none c none) Set.univ (bodyAt0 t) (fun _ =>
        iprop(PhiS0 V c (t.val + 1) t.isLt ∗ (dat0 V c).owesAt () t.castSucc
          ∗ owns c (st0_0 t) fullShare (xa0 V c t) ∗ owns c (st0_1 t) fullShare (xv0 V c t) ∗ owns c (st0_2 t) fullShare (xe0 V c t)
          ∗ owns c (st0_3 t) fullShare (xw0 V c t) ∗ owns c (st0_4 t) fullShare (xb0 V c t) ∗ owns c (st0_5 t) fullShare (hp0 V c t)
          ∗ (dat0 V c).leavesExact 6 t ∗ (dat0 V c).leavesExact 7 t)) := by
  unfold found0 bodyAt0 hp0
  obtain ⟨b0, b1, b2, b3, b4⟩ := before0 V c t
  simp only [b0, b1, b2, b3, b4]
  rw [show (dat0 V c).Φ t.castSucc = PhiS0 V c t.val (Nat.le_of_lt t.isLt) from rfl]
  unfold PhiS0
  iintro ⟨⟨%a, %b, %hab, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hacc := acc0_eq V c t a b hab
  iapply (run0 c (grid0.coords t) _ _ _ _ _ _ _ _ _ _ _ _ _ _ _ _ _ _ _ _ (xa0 V c t) (xv0 V c t) (xe0 V c t) (xw0 V c t) (xb0 V c t)
    ((dat0 V c).before 5 t d5) ((dat0 V c).before 6 t d6) ((dat0 V c).before 7 t d7) a b Set.univ _)
  iframe H0 H1 H2 H3 H4 H5 H6 H7 HS0 HS1
  iintro ⟨H0, H1, H2, H3, H4, H5, H6, H7, HS0, HS1⟩
  iframe Ho H0 H1 H2 H3 H4 H5
  isplitl [HS0 HS1 Hr]
  · iexists _; iexists _; isplitr; · ipureintro; exact fun _ => ⟨hacc.1.symm, hacc.2.symm⟩
    iframe
  isplitl [H6]; · iapply (leaves0_last V c t 6 (by decide) d6 _ ((after0_6 V c t).trans hacc.1)); iexact H6
  iapply (leaves0_last V c t 7 (by decide) d7 _ ((after0_7 V c t).trans hacc.2)); iexact H7

theorem body_obligation0 (c : Dev nD) : BodyObligation (dat0 (F := F) V c) (defs₀ (F := F)) Variants.none () Set.univ := by
  intro t
  rw [bigSep_W0, bigSep_W0]
  exact sound_body0 V c t

-- What the launch hands the region is the invariant before the first point, and after the last point it is given back.
theorem hin0 (c : Dev nD) : (Pipeline.ΦA spec0 c : sProp 𝕄) ⊢ (dat0 V c).Φ 0 := by
  rw [show (dat0 V c).Φ 0 = PhiS0 V c 0 (Nat.zero_le _) from rfl, PhiA0_eq]; unfold PhiS0
  iintro ⟨⟨%a, H0⟩, ⟨%b, H1⟩, Hr⟩
  iexists a; iexists b; isplitr; · ipureintro; exact fun h => absurd rfl h
  iframe

theorem hout0 (c : Dev nD) : (dat0 V c).Φ (Fin.last cfg0.N) ⊢ (Pipeline.ΦA spec0 c : sProp 𝕄) := by
  rw [show (dat0 V c).Φ (Fin.last cfg0.N) = PhiS0 V c cfg0.N (Nat.le_refl _) from rfl, PhiA0_eq]; unfold PhiS0
  iintro ⟨%a, %b, -, H0, H1, Hr⟩
  isplitl [H0]; · iexists _; iexact H0
  isplitl [H1]; · iexists _; iexact H1
  iexact Hr

end Cert.Kernel.Hand

end
-- ==== Proof.FrameKernel.R1.lean ====
import proofs.«125831_j1151051235416_1_alg».proof.Proof.Gen.Kernel.Launch
import proofs.«125831_j1151051235416_1_alg».proof.Proof.Gen.Kernel.Skeleton
import proofs.«125831_j1151051235416_1_alg».proof.Proof.Gen.Kernel.Points
import proofs.«125831_j1151051235416_1_alg».proof.Proof.Whole
import Idealize.ShloMosaic.Lib.Pipeline.RegionsLoop
import Idealize.ShloMosaic.Lib.Pipeline.FrameSuffix
import Idealize.ShloMosaic.Lib.Ring

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Facts₀ Cert.Kernel.Facts Cert.Kernel.Gen

variable {F : FTy → Type} [FloatOps F]

local notation "𝕄" => MT nD τ sig Unit (Elt F) ℕ (UR sig nD τ) ℕ

/-- The body's first condition: it holds exactly at the grid's first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- Its second condition: it holds exactly at the last point. -/
abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

/-- Windows 8 and 9 take the body's stores at the last point only. -/
theorem idle1 : ∀ w : Fin cfg1.W, 8 ≤ w.val → ∀ t : Fin cfg1.N,
    (¬cond1_1 (grid1.coords t) → cfg1.idle w (grid1.coords t) = true ∧ (cfg1.win w).flush t = false)
      ∧ (cond1_1 (grid1.coords t) → cfg1.idle w (grid1.coords t) = false) := by decide +kernel

/-- The two accumulators after the body: reset first where the first condition holds, then increased by the block's column sums and those of its square. -/
def accs1 (i : grid1.Coords) (p : Vec F S5000x128 .f32) (a : Vec F S1x128 .f32 × Vec F S1x128 .f32) : Vec F S1x128 .f32 × Vec F S1x128 .f32 :=
  (k1_pay1 p (if cond1_0 i then k1_pay3 else a.1), k1_pay2 p (if cond1_0 i then k1_pay4 else a.2))

section
variable (c : Dev nD) (E : Set ℕ) (i : grid1.Coords) (arg1 : Memref sig .tc .vmem S5000x128 .f32) (arg2 arg3 arg4 arg5 : Memref sig .tc .vmem S1x128 .f32)
  (arg6 : Memref sig .tc .vmem S128x128 .f32) (arg7 : Memref sig .tc .vmem S1x128 .f32) (arg8 : Memref sig .tc .vmem S5000x128 .f32)
  (arg9 arg10 arg11 arg12 : Memref sig .tc .vmem S1x128 .f32) (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole) (harg9 : arg9.IsWhole) (harg10 : arg10.IsWhole)
  (harg11 : arg11.IsWhole) (harg12 : arg12.IsWhole) (x0 : Vec F S5000x128 .f32) (x1 x2 x3 x4 : Vec F S1x128 .f32) (x5 : Vec F S128x128 .f32)
  (x6 : Vec F S1x128 .f32) (y7 : Vec F S5000x128 .f32) (y8 y9 a1 a2 : Vec F S1x128 .f32)

/-- The body's twelve buffers, each owned at given contents. -/
def held1 : sProp 𝕄 :=
  iprop(owns c.tc arg1 fullShare x0 ∗ owns c.tc arg2 fullShare x1 ∗ owns c.tc arg3 fullShare x2
    ∗ owns c.tc arg4 fullShare x3 ∗ owns c.tc arg5 fullShare x4 ∗ owns c.tc arg6 fullShare x5
    ∗ owns c.tc arg7 fullShare x6 ∗ owns c.tc arg8 fullShare y7 ∗ owns c.tc arg9 fullShare y8
    ∗ owns c.tc arg10 fullShare y9 ∗ owns c.tc arg11 fullShare a1 ∗ owns c.tc arg12 fullShare a2)

/-- The body on whole buffers: window 7's receives the block of the second affine map, the accumulators its sums, windows 8 and 9's the accumulators where the second condition holds. -/
theorem run1 (K : PUnit → sProp 𝕄) :
    iprop(held1 c arg1 arg2 arg3 arg4 arg5 arg6 arg7 arg8 arg9 arg10 arg11 arg12 x0 x1 x2 x3 x4 x5 x6 y7 y8 y9 a1 a2
        ∗ (held1 c arg1 arg2 arg3 arg4 arg5 arg6 arg7 arg8 arg9 arg10 arg11 arg12 x0 x1 x2 x3 x4 x5 x6 (k1_pay5 x0 x2 x1 x3 x4 x5 x6)
            (if cond1_1 i then (accs1 i (k1_pay5 x0 x2 x1 x3 x4 x5 x6) (a1, a2)).1 else y8) (if cond1_1 i then (accs1 i (k1_pay5 x0 x2 x1 x3 x4 x5 x6) (a1, a2)).2 else y9)
            (accs1 i (k1_pay5 x0 x2 x1 x3 x4 x5 x6) (a1, a2)).1 (accs1 i (k1_pay5 x0 x2 x1 x3 x4 x5 x6) (a1, a2)).2 -∗ K ⟨⟩))
      ⊢ wp frame (wpE (defs₀ (F := F)) Variants.none c none) E (cc1__layer2_kernel i arg1 harg1 arg2 harg2 arg3 harg3 arg4 harg4 arg5 harg5 arg6 harg6 arg7 harg7 arg8 harg8 arg9 harg9 arg10 harg10 arg11 harg11 arg12 harg12) K := by
  unfold held1
  simp only [Cert.Whole.owns_unread c harg1, Cert.Whole.owns_unread c harg2, Cert.Whole.owns_unread c harg3, Cert.Whole.owns_unread c harg4, Cert.Whole.owns_unread c harg5, Cert.Whole.owns_unread c harg6,
    Cert.Whole.owns_unread c harg7, Cert.Whole.owns_unread c harg8, Cert.Whole.owns_unread c harg9, Cert.Whole.owns_unread c harg10, Cert.Whole.owns_unread c harg11, Cert.Whole.owns_unread c harg12]
  simp only [cc1__layer2_kernel_eq_skeleton]; unfold cc1__layer2_kernel_skel
  iintro ⟨⟨H0, H1, H2, H3, H4, H5, H6, H7, H8, H9, H10, H11⟩, Hk⟩
  by_cases hc0 : cond1_0 i <;> by_cases hc1 : cond1_1 i <;>
  · sl_exec (disch := first | exact hc0 | exact hc1)
    sl_step
    iapply Hk
    sl_unfold_run_names
    simp only [accs1, cond1_0, cond1_1, hc0, hc1, ↓reduceIte, Cert.Whole.stored_unread (S := S5000x128) harg8 _ Cert.Whole.zeros, Cert.Whole.stored_unread (S := S1x128) harg9 _ Cert.Whole.zeros,
      Cert.Whole.stored_unread (S := S1x128) harg10 _ Cert.Whole.zeros, Cert.Whole.stored_unread (S := S1x128) harg11 _ Cert.Whole.zeros, Cert.Whole.stored_unread (S := S1x128) harg12 _ Cert.Whole.zeros,
      Cert.Whole.readCov_store (S := S1x128) _ Cert.Whole.zeros, Cert.Whole.load (S := S1x128) _ Cert.Whole.zeros, Cert.Whole.load (S := S5000x128) _ Cert.Whole.zeros,
      Cert.Whole.load (S := S128x128) _ Cert.Whole.zeros]
    iframe

end

variable (V : (c : Dev nD) → (b : Ref sig .tc) → Buf (Elt F) ((c : Thread nD τ).loc b))

/-- The block of window `w`'s array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xh1 (c : Dev nD) (t : Fin cfg1.N) : Vec F S5000x128 .f32 := iblk1 V c 0 t
abbrev xm1 (c : Dev nD) (t : Fin cfg1.N) : Vec F S1x128 .f32 := iblk1 V c 1 t
abbrev xs1 (c : Dev nD) (t : Fin cfg1.N) : Vec F S1x128 .f32 := iblk1 V c 2 t
abbrev xg1 (c : Dev nD) (t : Fin cfg1.N) : Vec F S1x128 .f32 := iblk1 V c 3 t
abbrev xt1 (c : Dev nD) (t : Fin cfg1.N) : Vec F S1x128 .f32 := iblk1 V c 4 t
abbrev xw1 (c : Dev nD) (t : Fin cfg1.N) : Vec F S128x128 .f32 := iblk1 V c 5 t
abbrev xb1 (c : Dev nD) (t : Fin cfg1.N) : Vec F S1x128 .f32 := iblk1 V c 6 t

/-- Window 7's block at point `t`: the second affine map of the normalised, rectified input block. -/
def hp1 (c : Dev nD) (t : Fin cfg1.N) : Vec F S5000x128 .f32 :=
  k1_pay5 (xh1 V c t) (xs1 V c t) (xm1 V c t) (xg1 V c t) (xt1 V c t) (xw1 V c t) (xb1 V c t)

/-- The column sums of window 7's blocks up to position `n`, and of their squares. -/
def acc1 (c : Dev nD) : (n : ℕ) → n < cfg1.N → Vec F S1x128 .f32 × Vec F S1x128 .f32
  | 0, hn => (k1_pay1 (hp1 V c ⟨0, hn⟩) (k1_pay3 (F := F)), k1_pay2 (hp1 V c ⟨0, hn⟩) (k1_pay4 (F := F)))
  | n + 1, hn => (k1_pay1 (hp1 V c ⟨n + 1, hn⟩) (acc1 c n (Nat.lt_of_succ_lt hn)).1, k1_pay2 (hp1 V c ⟨n + 1, hn⟩) (acc1 c n (Nat.lt_of_succ_lt hn)).2)

abbrev scM1_0 : Memref sig .tc .vmem S1x128 .f32 := Memref.whole cc1_scratch0
abbrev scM1_1 : Memref sig .tc .vmem S1x128 .f32 := Memref.whole cc1_scratch1

/-- The rest of the invariant: with the two accumulators back it is what the region was entered with. -/
def rest1 (c : Dev nD) : sProp 𝕄 :=
  iprop(((∃ d, owns c.tc scM1_0 fullShare d) ∗ (∃ d, owns c.tc scM1_1 fullShare d)) -∗ Pipeline.ΦA spec1 c)

/-- The invariant before position `n`: the two accumulators, past the first point at the sums so far, and the rest. -/
def PhiS1 (c : Dev nD) (n : ℕ) (h : n ≤ cfg1.N) : sProp 𝕄 :=
  iprop(∃ a1 a2, ⌜∀ hn : n ≠ 0, (a1, a2) = acc1 V c (n - 1) (by omega)⌝ ∗ owns c.tc scM1_0 fullShare a1 ∗ owns c.tc scM1_1 fullShare a2 ∗ rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => hp1 V c t
    | ⟨8, _⟩ => (acc1 V c t.val t.isLt).1
    | ⟨9, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_7 (c : Dev nD) (t : Fin cfg1.N) : (dat1 V c).after 7 t = hp1 V c t := by dsimp only [dat1]
theorem after1_8 (c : Dev nD) (t : Fin cfg1.N) : (dat1 V c).after 8 t = (acc1 V c t.val t.isLt).1 := by dsimp only [dat1]
theorem after1_9 (c : Dev nD) (t : Fin cfg1.N) : (dat1 V c).after 9 t = (acc1 V c t.val t.isLt).2 := by dsimp only [dat1]

/-- What the region is entered with holds the two accumulators, at some contents. -/
theorem PhiA1_split (c : Dev nD) : (Pipeline.ΦA spec1 c : sProp 𝕄)
    ⊢ iprop((∃ d, owns c.tc scM1_0 fullShare d) ∗ (∃ d, owns c.tc scM1_1 fullShare d) ∗ rest1 c) := by
  unfold rest1 Pipeline.ΦA; rw [scopedRest1_eq]; simp only [scM1_0, scM1_1, owns_whole]
  iintro ⟨⟨B0, B1, B2, B3, B4, B5, B6, B7, B8, B9, B10, B11, B12, S0, S1, C0, C1, C2, C3, C4, C5, C6, C7⟩, Hg⟩
  iframe S0 S1
  iintro ⟨S0, S1⟩
  iframe

/-- The sums after a point are one step of the body from the sums before it, at the first point from anything. -/
theorem acc1_eq (c : Dev nD) (t : Fin cfg1.N) (a) (ha : ∀ hn : t.val ≠ 0, a = acc1 V c (t.val - 1) (by omega)) :
    acc1 V c t.val t.isLt = accs1 (grid1.coords t) (hp1 V c t) a := by
  unfold accs1
  obtain ⟨n, hn⟩ := t
  cases n with
  | zero => rw [if_pos ((hcond1_0 _).mpr rfl), if_pos ((hcond1_0 _).mpr rfl)]; rfl
  | succ n =>
    rw [if_neg fun h => Nat.succ_ne_zero n ((hcond1_0 _).mp h), if_neg fun h => Nat.succ_ne_zero n ((hcond1_0 _).mp h), ha (Nat.succ_ne_zero n)]; rfl

/-- At every point the buffers of the seven input windows hold their blocks. -/
theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t) ∧ (∀ d, (dat1 V c).before 4 t d = iblk1 V c 4 t)
    ∧ (∀ d, (dat1 V c).before 5 t d = iblk1 V c 5 t) ∧ (∀ d, (dat1 V c).before 6 t d = iblk1 V c 6 t) := by
  refine ⟨?_, ?_, ?_, ?_, ?_, ?_, ?_⟩ <;> intro d <;>
  exact ((dat1 V c).before_in_eq_fetched _ rfl (fun _ => rfl) (fun _ _ _ => rfl) (fun _ => rfl) t d).trans rfl

/-- Windows 8 and 9 are handed back at the sums at the last point, as found at the others. -/
theorem leaves1_out (c : Dev nD) (t : Fin cfg1.N) (w : Fin cfg1.W) (hw : 8 ≤ w.val) (d) (X) (hX : (dat1 V c).after w t = X) :
    owns c.tc ((cfg1.win w).stage (cfg1.slots t w)) fullShare (if cond1_1 (grid1.coords t) then X else (dat1 V c).before w t d)
      ⊢ (dat1 V c).leavesExact w t := by
  subst hX
  by_cases h : cond1_1 (grid1.coords t)
  · rw [if_pos h]; unfold Dat.leavesExact; rw [(idle1 w hw t).2 h]
  · rw [if_neg h, Dat.leavesExact_idle _ w t ((idle1 w hw t).1 h).1 ((idle1 w hw t).1 h).2]
    iintro H; iexists d; iexact H

/-- What the body leaves at point `t`: the sums stepped, the inputs' buffers at their blocks, window 7's at its block. -/
def bodyPost1 (c : Dev nD) (t : Fin cfg1.N) : sProp 𝕄 :=
  iprop(PhiS1 V c (t.val + 1) t.isLt
    ∗ (dat1 V c).owesAt () t.castSucc
    ∗ owns c.tc (st1_0 t) fullShare (xh1 V c t)
    ∗ owns c.tc (st1_1 t) fullShare (xm1 V c t)
    ∗ owns c.tc (st1_2 t) fullShare (xs1 V c t)
    ∗ owns c.tc (st1_3 t) fullShare (xg1 V c t)
    ∗ owns c.tc (st1_4 t) fullShare (xt1 V c t)
    ∗ owns c.tc (st1_5 t) fullShare (xw1 V c t)
    ∗ owns c.tc (st1_6 t) fullShare (xb1 V c t)
    ∗ owns c.tc (st1_7 t) fullShare (hp1 V c t)
    ∗ (dat1 V c).leavesExact 8 t
    ∗ (dat1 V c).leavesExact 9 t)

/-- The body at any point is one step of the sums. -/
theorem body_obligation1 (c : Dev nD) : BodyObligation (dat1 (F := F) V c) (defs₀ (F := F)) Variants.none () Set.univ := by
  intro t
  rw [bigSep_W1, bigSep_W1]
  show _ ⊢ wp frame _ Set.univ (bodyAt1 t) (fun _ => bodyPost1 V c t)
  unfold bodyPost1 bodyAt1 hp1
  obtain ⟨b0, b1, b2, b3, b4, b5, b6⟩ := before1 V c t
  simp only [b0, b1, b2, b3, b4, b5, b6]
  rw [show (dat1 V c).Φ t.castSucc = PhiS1 V c t.val (Nat.le_of_lt t.isLt) from rfl]
  unfold PhiS1
  iintro ⟨⟨%a1, %a2, %ha, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e := acc1_eq V c t (a1, a2) ha
  unfold hp1 at e
  iapply (run1 c Set.univ (grid1.coords t) _ _ _ _ _ _ _ _ _ _ _ _ _ _ _ _ _ _ _ _ _ _ _ _ (xh1 V c t) (xm1 V c t) (xs1 V c t) (xg1 V c t) (xt1 V c t) (xw1 V c t) (xb1 V c t)
    ((dat1 V c).before 7 t d7) ((dat1 V c).before 8 t d8) ((dat1 V c).before 9 t d9) a1 a2 _)
  unfold held1
  iframe H0 H1 H2 H3 H4 H5 H6 H7 H8 H9 HS0 HS1
  iintro ⟨H0, H1, H2, H3, H4, H5, H6, H7, H8, H9, HS0, HS1⟩
  iframe H0 H1 H2 H3 H4 H5 H6 H7 Ho
  isplitl [HS0 HS1 Hr]
  · iexists _, _; iframe HS0 HS1 Hr; ipureintro; exact fun _ => e.symm
  isplitl [H8]
  · iapply (leaves1_out V c t 8 (by decide) d8 _ ((after1_8 V c t).trans (congrArg Prod.fst e))) $$ H8
  iapply (leaves1_out V c t 9 (by decide) d9 _ ((after1_9 V c t).trans (congrArg Prod.snd e))) $$ H9

theorem hin1 (c : Dev nD) : (Pipeline.ΦA spec1 c : sProp 𝕄) ⊢ (dat1 V c).Φ 0 := by
  rw [show (dat1 V c).Φ 0 = PhiS1 V c 0 (Nat.zero_le _) from rfl]; unfold PhiS1
  refine (PhiA1_split c).trans ?_
  iintro ⟨⟨%a1, H0⟩, ⟨%a2, H1⟩, Hr⟩; iexists a1, a2; iframe; ipureintro; exact fun h => absurd rfl h

/-- After the last point the invariant gives back what the region was entered with. -/
theorem hout1 (c : Dev nD) : (dat1 V c).Φ (Fin.last cfg1.N) ⊢ (Pipeline.ΦA spec1 c : sProp 𝕄) := by
  rw [show (dat1 V c).Φ (Fin.last cfg1.N) = PhiS1 V c cfg1.N (Nat.le_refl _) from rfl]; unfold PhiS1 rest1
  iintro ⟨%a1, %a2, -, H0, H1, Hr⟩
  iapply Hr
  isplitl [H0]; · iexists _; iexact H0
  iexists _; iexact H1

end Cert.Kernel.Hand

end
-- ==== Proof.FrameKernel.R2.lean ====
import proofs.«125831_j1151051235416_1_alg».proof.Proof.Gen.Kernel.Launch
import proofs.«125831_j1151051235416_1_alg».proof.Proof.Gen.Kernel.Skeleton
import proofs.«125831_j1151051235416_1_alg».proof.Proof.Gen.Kernel.Points
import proofs.«125831_j1151051235416_1_alg».proof.Proof.Whole
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xh2 (c : Dev nD) (t : Fin cfg2.N) : Vec F S5000x128 .f32 := iblk2 V c 0 t
abbrev xm2 (c : Dev nD) (t : Fin cfg2.N) : Vec F S1x128 .f32 := iblk2 V c 1 t
abbrev xs2 (c : Dev nD) (t : Fin cfg2.N) : Vec F S1x128 .f32 := iblk2 V c 2 t
abbrev xg2 (c : Dev nD) (t : Fin cfg2.N) : Vec F S1x128 .f32 := iblk2 V c 3 t
abbrev xt2 (c : Dev nD) (t : Fin cfg2.N) : Vec F S1x128 .f32 := iblk2 V c 4 t

def hp2 (c : Dev nD) (t : Fin cfg2.N) : Vec F S5000x128 .f32 :=
  k2_pay1 (xh2 V c t) (xs2 V c t) (xm2 V c t) (xg2 V c t) (xt2 V c t)

-- Each input's buffer stays at its block of the array and the output's ends at the payload of those blocks.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => hp2 V c t
  Φ _ := Pipeline.ΦA spec2 c
  q _ := fullShare
  owed _ := 0

theorem A_eq2 (c : Dev nD) (w : Fin cfg2.W) : (dat2 V c).A w = V c (Pipeline.arrRef spec2 w) := rfl
theorem after2_5 (c : Dev nD) (t : Fin cfg2.N) : (dat2 V c).after 5 t = hp2 V c t := rfl

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ ∀ d, (dat2 V c).before 4 t d = iblk2 V c 4 t := by
  refine ⟨?_, ?_, ?_, ?_, ?_⟩ <;>
    exact fun d => ((dat2 V c).before_in_eq_fetched _ rfl (fun _ => rfl) (fun _ _ _ => rfl) (fun _ => rfl) t d).trans rfl

-- The body loads its five inputs and stores the payload of what it loaded over the whole output buffer.
theorem body_obligation2 (c : Dev nD) : BodyObligation (dat2 (F := F) V c) (defs₀ (F := F)) Variants.none () Set.univ := fun t => by
  obtain ⟨b0, b1, b2, b3, b4⟩ := before2 V c t
  rw [bigSep_W2, bigSep_W2, show (dat2 V c).Φ t.succ = (dat2 V c).Φ t.castSucc from rfl,
    show (dat2 V c).owesAt () t.succ = (dat2 V c).owesAt () t.castSucc from rfl, after2_5]
  simp only [b0, b1, b2, b3, b4]
  change _ ⊢ wp _ _ _ (bodyAt2 t) _
  unfold bodyAt2 hp2
  simp only [cc2__layer3_kernel_eq_skeleton]; unfold cc2__layer3_kernel_skel owns
  iintro ⟨HΦ, Ho, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩⟩
  sl_exec
  sl_step
  iframe HΦ Ho
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _; isplitr
  swap; · iexact H6
  ipureintro
  refine (Cert.Whole.read_store _ f6 Cert.Whole.zeros _ _ _).trans ?_
  refine congr (congr (congr (congr (congrArg _ ?_) ?_) ?_) ?_) ?_ <;> exact (View.ld_unit_zero Cert.Whole.zeros _ _).trans ‹_›

end Cert.Kernel.Hand

end
-- ==== Proof.FrameKernel.Run.lean ====
import proofs.«125831_j1151051235416_1_alg».proof.Proof.FrameKernel.R0
import proofs.«125831_j1151051235416_1_alg».proof.Proof.FrameKernel.R1
import proofs.«125831_j1151051235416_1_alg».proof.Proof.FrameKernel.R2
import proofs.«125831_j1151051235416_1_alg».proof.Proof.Gen.Kernel.Regions
import Idealize.ShloMosaic.Lib.Pipeline.RegionsLoop
import Idealize.ShloMosaic.Lib.Pipeline.FrameSuffix

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N :=
  Pipeline.withArrays_arr spec0 launch0.win.arr_inj c _ _ w
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N :=
  Pipeline.withArrays_arr spec1 launch1.win.arr_inj c _ _ w
abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w

-- A kernel call changes none of the buffers it is entered with but its output arrays.
theorem keep_of {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Proc.devRef .tc (Pipeline.arrRef cfg.spec w)))
    (b : Ref sig .tc) (hb : ∀ w, Pipeline.arrRef cfg.spec w = b → (cfg.win w).isOut = false) :
    Pipeline.withArrays cfg.spec c V (fun w => D.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((D.arrAt_in w (hb w rfl) _).trans (hA w))
  · exact Pipeline.withArrays_of_ne _ c _ _ b fun w e => h ⟨w, e⟩
theorem W2_keep (c : Dev nD) (b : Ref sig .tc) (hb : b ∉ ([main_v20_0, main_v20_1, main_v20_2] : List (Ref sig .tc))) :
    W2 m c (Proc.devRef .tc b) = W1 m c (Proc.devRef .tc b) :=
  keep_of (dat0 (U1 m) c) (W1 m c) launch0.win.arr_inj (A_eq0 (U1 m) c) b (by rintro w rfl; revert w; decide)
theorem W4_keep (c : Dev nD) (b : Ref sig .tc) (hb : b ∉ ([main_v27_0, main_v27_1, main_v27_2] : List (Ref sig .tc))) :
    W4 m c (Proc.devRef .tc b) = W3 m c (Proc.devRef .tc b) :=
  keep_of (dat1 (U3 m) c) (W3 m c) launch1.win.arr_inj (A_eq1 (U3 m) c) b (by rintro w rfl; revert w; decide)

theorem W6_kept (c : Dev nD) (b : Ref sig .tc) (h0 : b ∉ hostOps0_W) (h1 : b ∉ hostOps1_W) (h2 : b ∉ hostOps2_W)
    (ha : b ∉ ([main_v20_0, main_v20_1, main_v20_2] : List (Ref sig .tc)))
    (hb : b ∉ ([main_v27_0, main_v27_1, main_v27_2] : List (Ref sig .tc)))
    (hc : b ∉ ([main_v34] : List (Ref sig .tc))) :
    W6 m c (Proc.devRef .tc b) = m ((c : Thread nD τ).loc b) :=
  (keep_of (dat2 (U5 m) c) (W5 m c) launch2.win.arr_inj (A_eq2 (U5 m) c) b (by rintro w rfl; revert w; decide)).trans <|
    (StableHlo.after_of_writes_sub hostOps2 _ hostOps2_writes h2).trans <|
    (W4_keep m c b hb).trans <| (StableHlo.after_of_writes_sub hostOps1 _ hostOps1_writes h1).trans <|
    (W2_keep m c b ha).trans <| StableHlo.after_of_writes_sub hostOps0 _ hostOps0_writes h0

def pdats : (p : Fin 3) → (c : Dev nD) → Dat τ (Elt F) Unit ℕ (UR sig nD τ) ℕ (Pipeline.pin (pcfgs (F := F)) adm p) c
  | ⟨0, _⟩ => dat0 (U1 m)
  | ⟨1, _⟩ => dat1 (U3 m)
  | ⟨2, _⟩ => dat2 (U5 m)
abbrev 𝒱₀ : Variants := Variants.none
abbrev L0 : GSem nD τ sig → Finset Unit := fun _ => ∅
abbrev lv0 : GSem nD τ sig → Unit → ℕ := fun _ _ => 0
abbrev R (c : Dev nD) : sProp 𝕄 := iprop((∃ r, prngReg c r) ∗ ∃ W, owes (c : Thread nD τ) (0 : CellTallies nD τ sig Unit) W)
abbrev held (V : Dev nD → Valuation τ sig (Elt F)) (c : Dev nD) : sProp 𝕄 :=
  iprop(StableHlo.held (c : Thread nD τ) (Pipeline.ucRefs τ sig) (V c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem pd_facts : ∀ (p : Fin 3) (c : Dev nD), (∀ w, (pdats m p c).q w = fullShare) ∧ (∀ t, (pdats m p c).owed t = 0)
      ∧ ∀ t, (pdats m p c).recorded t = Set.univ
  | ⟨0, _⟩, _ => ⟨fun _ => rfl, fun _ => rfl, fun _ => rfl⟩
  | ⟨1, _⟩, _ => ⟨fun _ => rfl, fun _ => rfl, fun _ => rfl⟩
  | ⟨2, _⟩, _ => ⟨fun _ => rfl, fun _ => rfl, fun _ => rfl⟩

-- A kernel call as a segment: entered with every unscoped buffer at `V`, left with its arrays final and the others as entered.
def reg (p : Fin 3) (lf : Pipeline.LaunchFacts (nD := nD) (τ := τ) cfgs p) (V : Dev nD → Valuation τ sig (Elt F))
    (hb : ∀ c, BodyObligation (pdats m p c) (defs₀ (F := F)) 𝒱₀ () Set.univ)
    (hA : ∀ c w, (pdats m p c).A w = V c (Proc.devRef .tc (Pipeline.arrRef (cfgs p).spec w)))
    (hi : ∀ c, (Pipeline.ΦA (cfgs p).spec c : sProp 𝕄) ⊢ (pdats m p c).Φ 0)
    (ho : ∀ c, (pdats m p c).Φ (Fin.last _) ⊢ (Pipeline.ΦA (cfgs p).spec c : sProp 𝕄)) :
    Pipeline.RegionSeg (pcfgs (F := F)) adm (pdats m) () defs₀ 𝒱₀ L0 lv0 p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L0 lv0 p fun c => (pd_facts m p c).2.1
  pre := held V
  post := held fun c => Pipeline.withArrays (cfgs p).spec c (V c) fun w => (pdats m p c).arrAt w (cfgs p).N
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨hq, hz, hr⟩ := pd_facts m p c
    rw [Pipeline.ownSems0_none]
    have hsplit := Pipeline.arrays_of_unscopedBufs (p := p) (pcfgs (F := F)) adm (pdats m) lf.win lf.arr_whole c
      ((pdats m p c).share_full hq) (fun b => V c b) (hA c)
    rw [Pipeline.unscopedBufs_held] at hsplit
    unfold Pipeline.Dat.owesAt Pipeline.owesWithin Pipeline.Dat.bound; rw [hz, hr]
    iintro ⟨⟨Hub, Hp, %W, HO⟩, -, -⟩
    ihave H := hsplit $$ Hub
    icases H with ⟨Ha, Hrest⟩
    imodintro
    iframe Ha Hp
    isplitr; · unfold Pipeline.prefHeld; rw [show (Finset.univ : Finset (Fin 0)) = ∅ from rfl, BI.bigSep_empty]; iempintro
    isplitl [HO]
    · iexists W; isplitr; · ipureintro; exact fun _ _ => Or.inl trivial
      iexact HO
    iexact Hrest
  hin c := by
    refine .trans ?_ (hi c); unfold Pipeline.ΦA
    iintro ⟨Hp, -, Hr⟩
    isplitl [Hr]; · iexact Hr
    iexact Hp
  hout c := by
    rw [Pipeline.ownSems0_none]; refine (ho c).trans ?_; unfold Pipeline.ΦA
    iintro ⟨Hr, Hp⟩
    isplitl [Hp]; · iexact Hp
    isplitr; · iempintro
    iexact Hr
  hexit c := by
    obtain ⟨hq, hz, -⟩ := pd_facts m p c
    have hjoin := Pipeline.unscopedBufs_of_arrays (p := p) (pcfgs (F := F)) adm (Ix := Unit) (Name := ℕ) (U := UR sig nD τ) (Lvl := ℕ)
      lf.win lf.arr_whole c (pdats m) ((pdats m p c).share_full hq) (fun b => V c b)
      (fun b => Pipeline.withArrays (cfgs p).spec c (V c) (fun w => (pdats m p c).arrAt w (cfgs p).N) b) _
      (fun w => (Pipeline.withArrays_arr (cfgs p).spec lf.win.arr_inj c (V c) (fun w => (pdats m p c).arrAt w (cfgs p).N) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin; rw [hz]
    iintro ⟨Ha, ⟨%W, -, HO⟩, HY, Hrest⟩
    imodintro
    isplitl [Ha Hrest]
    · iapply hjoin; isplitl [Ha] <;> iassumption
    isplitl [HY]; · iexact HY
    iexists W; iexact HO

abbrev hsegs : List (Pipeline.Seg (pcfgs (F := F)) adm (pdats m) () defs₀ 𝒱₀ L0 lv0) :=
  [ .host (hseg hostOps0 hostOps0_sub hostOps0_fresh (W0 m)),
    .region (reg m 0 launch0 (W1 m) (body_obligation0 (U1 m)) (A_eq0 (U1 m)) (hin0 (U1 m)) (hout0 (U1 m))),
    .host (hseg hostOps1 hostOps1_sub hostOps1_fresh (W2 m)),
    .region (reg m 1 launch1 (W3 m) (body_obligation1 (U3 m)) (A_eq1 (U3 m)) (hin1 (U3 m)) (hout1 (U3 m))),
    .host (hseg hostOps2 hostOps2_sub hostOps2_fresh (W4 m)),
    .region (reg m 2 launch2 (W5 m) (body_obligation2 (U5 m)) (A_eq2 (U5 m)) (fun _ => .rfl) fun _ => .rfl) ]
theorem main_run (c : Dev nD) : main (F := F) c = Pipeline.Seg.run (hsegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- Every weakly fair execution terminates, and the final memory holds every unscoped buffer at the last boundary's contents.
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L0 lv0 m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := held (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

-- No argument array is scoped, written by a host operation, or an output array of a kernel call.
theorem args_kept : ∀ b ∈ ([main_arg0, main_arg1, main_arg2, main_arg3, main_arg4, main_arg5, main_arg6, main_arg7, main_arg8, main_arg9,
      main_arg10, main_arg11, main_arg12] : List (Ref sig .tc)),
    ¬ (Proc.devRef .tc b : DevRef τ sig).isScoped ∧ b ∉ hostOps0_W ∧ b ∉ hostOps1_W ∧ b ∉ hostOps2_W
      ∧ b ∉ ([main_v20_0, main_v20_1, main_v20_2] : List (Ref sig .tc)) ∧ b ∉ ([main_v27_0, main_v27_1, main_v27_2] : List (Ref sig .tc))
      ∧ b ∉ ([main_v34] : List (Ref sig .tc)) := by decide

-- Every argument array holds what it held at launch.
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)

theorem run_out (ρ : Dev nD → PrngReg) : θ_run defs (onTc (τ := τ) (main (F := F))) ⟨m, fun _ => 0, ρ⟩ (fun r => ∀ c : Dev nD,
      r.2.mem ((c.tc : Thread nD τ).loc main_v34) = W6 m c (Proc.devRef .tc main_v34) ∧ ArgsKept m r.2 c) :=
  (θ_run defs _ _).mono (fun r h c => by
    have k := fun b hb => match args_kept b hb with
      | ⟨h0, h1, h2, h3, h4, h5, h6⟩ => (h c _ (mem_uc b h0)).trans (W6_kept m c b h1 h2 h3 h4 h5 h6)
    exact ⟨h c _ (mem_uc main_v34 (by decide)), k _ (by decide), k _ (by decide), k _ (by decide), k _ (by decide), k _ (by decide),
      k _ (by decide), k _ (by decide), k _ (by decide), k _ (by decide), k _ (by decide), k _ (by decide), k _ (by decide), k _ (by decide)⟩)
    (run_all m ρ)

theorem frame (ρ : Dev nD → PrngReg) : θ_run defs (onTc (τ := τ) (main (F := F))) ⟨m, fun _ => 0, ρ⟩ (fun r => ∀ c : Dev nD, ArgsKept m r.2 c) :=
  (θ_run defs _ _).mono (fun r h c => (h c).2) (run_out m ρ)

end Cert.Kernel.Hand

end
-- ==== Proof.FrameKernelIdeal.R0Run.lean ====
import proofs.«125831_j1151051235416_1_alg».proof.Proof.Whole
import proofs.«125831_j1151051235416_1_alg».proof.Proof.Gen.KernelIdeal.Launch
import proofs.«125831_j1151051235416_1_alg».proof.Proof.Gen.KernelIdeal.Skeleton
import proofs.«125831_j1151051235416_1_alg».proof.Proof.Gen.KernelIdeal.Points
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Facts₀ Cert.KernelIdeal.Facts Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

-- The first condition holds at the first point only, the second at the last point only.
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 19 :=
  (by decide +kernel : ∀ t : Fin grid0.N, cond0_1 (grid0.coords t) ↔ t.val = 19)

theorem idle0 : ∀ (w : Fin cfg0.W) (t : Fin cfg0.N), 6 ≤ w.val →
    (¬cond0_1 (grid0.coords t) → cfg0.idle w (grid0.coords t) = true ∧ (cfg0.win w).flush t = false)
      ∧ (cond0_1 (grid0.coords t) → cfg0.idle w (grid0.coords t) = false) := by decide +kernel

-- The body at any grid point: the affine map of the inputs is stored, the accumulators (set to zero first at the first point) take its column sums, and at the last point they are copied out.
set_option maxHeartbeats 1000000 in
theorem run0 (c : Dev nD) (i : grid0.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (x1 x2 : Vec F S5000x128 .f32) (x3 : Vec F S1x128 .f32) (x4 : Vec F S128x128 .f32) (x5 : Vec F S1x128 .f32)
    (x6 : Vec F S5000x128 .f32) (x7 x8 a9 a10 : Vec F S1x128 .f32) (E : Set ℕ) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ owns c arg8 fullShare x8 ∗ owns c arg9 fullShare a9 ∗ owns c arg10 fullShare a10
        ∗ (iprop(owns c arg1 fullShare x1 ∗ owns c arg2 fullShare x2 ∗ owns c arg3 fullShare x3
            ∗ owns c arg4 fullShare x4 ∗ owns c arg5 fullShare x5 ∗ owns c arg6 fullShare (k0_pay4 x1 x3 x2 x4 x5)
            ∗ owns c arg7 fullShare (if cond0_1 i then (k0_pay5 x1 x3 x2 x4 x5 (if cond0_0 i then k0_pay2 else a9)) else x7)
            ∗ owns c arg8 fullShare (if cond0_1 i then (k0_pay1 (k0_pay6 x1 x3 x2 x4 x5 (if cond0_0 i then k0_pay3 else a10))) else x8)
            ∗ owns c arg9 fullShare (k0_pay5 x1 x3 x2 x4 x5 (if cond0_0 i then k0_pay2 else a9))
            ∗ owns c arg10 fullShare (k0_pay1 (k0_pay6 x1 x3 x2 x4 x5 (if cond0_0 i then k0_pay3 else a10)))) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  simp only [Whole.owns_unread c harg1, Whole.owns_unread c harg2, Whole.owns_unread c harg3, Whole.owns_unread c harg4, Whole.owns_unread c harg5,
    Whole.owns_unread c harg6, Whole.owns_unread c harg7, Whole.owns_unread c harg8, Whole.owns_unread c harg9, Whole.owns_unread c harg10]
  simp only [cc0__layer1_kernel_eq_skeleton]; unfold cc0__layer1_kernel_skel
  simp only [k0_part1_eq_skeleton]
  iintro ⟨H1, H2, H3, H4, H5, H6, H7, H8, H9, H10, Hk⟩
  by_cases hc0 : cond0_0 i <;> by_cases hc1 : cond0_1 i <;>
  · sl_exec (disch := first | exact hc0 | exact hc1)
    sl_step
    iapply Hk
    sl_unfold_words
    simp only [cond0_0, cond0_1, hc0, hc1, ↓reduceIte, Whole.stored_unread (S := S5000x128) harg6 _ Whole.zeros, Whole.stored_unread (S := S1x128) harg7 _ Whole.zeros,
      Whole.stored_unread (S := S1x128) harg8 _ Whole.zeros, Whole.stored_unread (S := S1x128) harg9 _ Whole.zeros, Whole.stored_unread (S := S1x128) harg10 _ Whole.zeros,
      Whole.readCov_store (S := S1x128) _ Whole.zeros, Whole.load (Val := Elt F) (S := S1x128) _ Whole.zeros, Whole.load (Val := Elt F) (S := S5000x128) _ Whole.zeros,
      Whole.load (Val := Elt F) (S := S128x128) _ Whole.zeros]
    iframe

end Cert.KernelIdeal.Hand

end
-- ==== Proof.FrameKernelIdeal.R0.lean ====
import proofs.«125831_j1151051235416_1_alg».proof.Proof.FrameKernelIdeal.R0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Facts₀ Cert.KernelIdeal.Facts Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xa0 (c : Dev nD) (t : Fin cfg0.N) : Vec F S5000x128 .f32 := iblk0 V c 0 t
abbrev xv0 (c : Dev nD) (t : Fin cfg0.N) : Vec F S5000x128 .f32 := iblk0 V c 1 t
abbrev xe0 (c : Dev nD) (t : Fin cfg0.N) : Vec F S1x128 .f32 := iblk0 V c 2 t
abbrev xw0 (c : Dev nD) (t : Fin cfg0.N) : Vec F S128x128 .f32 := iblk0 V c 3 t
abbrev xb0 (c : Dev nD) (t : Fin cfg0.N) : Vec F S1x128 .f32 := iblk0 V c 4 t

-- What point `t` stores into window 5: the affine map of the point's row block.
def hp0 (c : Dev nD) (t : Fin cfg0.N) : Vec F S5000x128 .f32 :=
  k0_pay4 (xa0 V c t) (xe0 V c t) (xv0 V c t) (xw0 V c t) (xb0 V c t)

-- The two accumulators after the point at position `n`: the column sums of the blocks so far and of their squares.
def acc0 (c : Dev nD) : (n : ℕ) → n < cfg0.N → Vec F S1x128 .f32 × Vec F S1x128 .f32
  | 0, hn =>
    (k0_pay5 (xa0 V c ⟨0, hn⟩) (xe0 V c ⟨0, hn⟩) (xv0 V c ⟨0, hn⟩) (xw0 V c ⟨0, hn⟩) (xb0 V c ⟨0, hn⟩) (k0_pay2 (F := F)),
     k0_pay1 (k0_pay6 (xa0 V c ⟨0, hn⟩) (xe0 V c ⟨0, hn⟩) (xv0 V c ⟨0, hn⟩) (xw0 V c ⟨0, hn⟩) (xb0 V c ⟨0, hn⟩) (k0_pay3 (F := F))))
  | n + 1, hn =>
    (k0_pay5 (xa0 V c ⟨n + 1, hn⟩) (xe0 V c ⟨n + 1, hn⟩) (xv0 V c ⟨n + 1, hn⟩) (xw0 V c ⟨n + 1, hn⟩) (xb0 V c ⟨n + 1, hn⟩) (acc0 c n (Nat.lt_of_succ_lt hn)).1,
     k0_pay1 (k0_pay6 (xa0 V c ⟨n + 1, hn⟩) (xe0 V c ⟨n + 1, hn⟩) (xv0 V c ⟨n + 1, hn⟩) (xw0 V c ⟨n + 1, hn⟩) (xb0 V c ⟨n + 1, hn⟩) (acc0 c n (Nat.lt_of_succ_lt hn)).2))

abbrev scM0_0 : Memref sig .tc .vmem S1x128 .f32 := Memref.whole cc0_scratch0
abbrev scM0_1 : Memref sig .tc .vmem S1x128 .f32 := Memref.whole cc0_scratch1

-- The rest of the invariant: all it holds besides the two accumulators.
def rest0 (c : Dev nD) : sProp 𝕄 :=
  iprop(Pipeline.scopedRestBut spec0 c [cc0_scratch0, cc0_scratch1] ∗ ∃ r, prngReg c r)

-- The invariant before position `n`: the accumulators at some contents, from the second point on at what the point before left.
def PhiS0 (c : Dev nD) (n : ℕ) (h : n ≤ cfg0.N) : sProp 𝕄 :=
  iprop(∃ a, ∃ b, ⌜∀ hz : n ≠ 0, a = (acc0 V c (n - 1) (by omega)).1 ∧ b = (acc0 V c (n - 1) (by omega)).2⌝
    ∗ owns c scM0_0 fullShare a ∗ owns c scM0_1 fullShare b ∗ rest0 c)

-- The proof data: each input keeps its block, window 5 takes the affine map of the block, windows 6 and 7 the accumulators.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hp0 V c t
    | ⟨6, _⟩ => (acc0 V c t.val t.isLt).1
    | ⟨7, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_5 (c : Dev nD) (t : Fin cfg0.N) : (dat0 V c).after 5 t = hp0 V c t := by dsimp only [dat0]
theorem after0_6 (c : Dev nD) (t : Fin cfg0.N) : (dat0 V c).after 6 t = (acc0 V c t.val t.isLt).1 := by dsimp only [dat0]
theorem after0_7 (c : Dev nD) (t : Fin cfg0.N) : (dat0 V c).after 7 t = (acc0 V c t.val t.isLt).2 := by dsimp only [dat0]

theorem sep_reassoc0 (A B C P : sProp 𝕄) : iprop(((A ∗ B) ∗ C) ∗ P) = iprop(A ∗ B ∗ (C ∗ P)) := by
  have h₁ : iprop(((A ∗ B) ∗ C) ∗ P) ⊢ iprop(A ∗ B ∗ (C ∗ P)) := by iintro ⟨⟨⟨HA, HB⟩, HC⟩, HP⟩; iframe
  have h₂ : iprop(A ∗ B ∗ (C ∗ P)) ⊢ iprop(((A ∗ B) ∗ C) ∗ P) := by iintro ⟨HA, HB, HC, HP⟩; iframe
  exact BI.equiv_iff.mp ⟨h₁, h₂⟩

-- The invariant the launch hands over, with the two accumulators apart.
theorem PhiA0_eq (c : Dev nD) :
    (Pipeline.ΦA spec0 c : sProp 𝕄)
      = iprop((∃ d, owns c scM0_0 fullShare d) ∗ (∃ d, owns c scM0_1 fullShare d) ∗ rest0 c) := by
  unfold Pipeline.ΦA rest0
  rw [Pipeline.scopedRest_split_of_list spec0 c [cc0_scratch0, cc0_scratch1] (by decide) (by decide)]
  simp only [scM0_0, scM0_1, owns_whole, bigSepL_cons_cons, bigSepL_singleton]
  exact sep_reassoc0 _ _ _ _

-- A point adds its column sums to what the point before left, the first point to zero.
theorem acc0_eq (c : Dev nD) (t : Fin cfg0.N) (a b : Vec F S1x128 .f32)
    (h : ∀ hz : t.val ≠ 0, a = (acc0 V c (t.val - 1) (by omega)).1 ∧ b = (acc0 V c (t.val - 1) (by omega)).2) :
    (acc0 V c t.val t.isLt).1 = k0_pay5 (xa0 V c t) (xe0 V c t) (xv0 V c t) (xw0 V c t) (xb0 V c t) (if cond0_0 (grid0.coords t) then k0_pay2 else a)
    ∧ (acc0 V c t.val t.isLt).2 = k0_pay1 (k0_pay6 (xa0 V c t) (xe0 V c t) (xv0 V c t) (xw0 V c t) (xb0 V c t) (if cond0_0 (grid0.coords t) then k0_pay3 else b)) := by
  obtain ⟨n, hn⟩ := t
  cases n with
  | zero => rw [if_pos ((hcond0_0 ⟨0, hn⟩).mpr rfl), if_pos ((hcond0_0 ⟨0, hn⟩).mpr rfl)]; exact ⟨rfl, rfl⟩
  | succ n =>
    obtain ⟨rfl, rfl⟩ := h (Nat.succ_ne_zero n)
    have hc : ¬cond0_0 (grid0.coords ⟨n + 1, hn⟩) := fun h => absurd ((hcond0_0 _).mp h) (Nat.succ_ne_zero n)
    rw [if_neg hc, if_neg hc]; exact ⟨rfl, rfl⟩

-- The body leaves every input's block in place.
theorem before0 (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) ∧ (∀ d, (dat0 V c).before 4 t d = iblk0 V c 4 t) := by
  refine ⟨?_, ?_, ?_, ?_, ?_⟩ <;> intro d <;>
  exact ((dat0 V c).before_in_eq_fetched _ rfl (fun _ => rfl) (fun _ _ _ => rfl) (fun _ => rfl) t d).trans rfl

-- The two column-sum results are stored at the last point and untouched before it.
theorem leaves0_last (c : Dev nD) (t : Fin cfg0.N) (w : Fin cfg0.W) (hw : 6 ≤ w.val) (d) (X) (hX : (dat0 V c).after w t = X) :
    owns c ((cfg0.win w).stage (cfg0.slots t w)) fullShare (if cond0_1 (grid0.coords t) then X else (dat0 V c).before w t d)
      ⊢ (dat0 V c).leavesExact w t := by
  subst hX
  by_cases h : cond0_1 (grid0.coords t)
  · rw [if_pos h]; unfold Dat.leavesExact; rw [(idle0 w t hw).2 h]
  · rw [if_neg h, Dat.leavesExact_idle _ w t ((idle0 w t hw).1 h).1 ((idle0 w t hw).1 h).2]
    iintro H; iexists _; iexact H

-- What the body finds in window `w`'s buffer at point `t`.
def found0 (c : Dev nD) (t : Fin cfg0.N) (w : Fin cfg0.W) : sProp 𝕄 :=
  iprop(∃ d, owns c ((cfg0.win w).stage (cfg0.slots t w)) fullShare ((dat0 V c).before w t d))

-- The body meets its obligation at every point: the invariant hands over the accumulators and takes them back one point on.
theorem sound_body0 (c : Dev nD) (t : Fin cfg0.N) :
    iprop((dat0 V c).Φ t.castSucc ∗ (dat0 V c).owesAt () t.castSucc ∗ found0 V c t 0 ∗ found0 V c t 1 ∗ found0 V c t 2 ∗ found0 V c t 3
        ∗ found0 V c t 4 ∗ found0 V c t 5 ∗ found0 V c t 6 ∗ found0 V c t 7)
      ⊢ wp frame (wpE (defs₀ (F := F)) Variants.none c none) Set.univ (bodyAt0 t) (fun _ =>
        iprop(PhiS0 V c (t.val + 1) t.isLt ∗ (dat0 V c).owesAt () t.castSucc
          ∗ owns c (st0_0 t) fullShare (xa0 V c t) ∗ owns c (st0_1 t) fullShare (xv0 V c t) ∗ owns c (st0_2 t) fullShare (xe0 V c t)
          ∗ owns c (st0_3 t) fullShare (xw0 V c t) ∗ owns c (st0_4 t) fullShare (xb0 V c t) ∗ owns c (st0_5 t) fullShare (hp0 V c t)
          ∗ (dat0 V c).leavesExact 6 t ∗ (dat0 V c).leavesExact 7 t)) := by
  unfold found0 bodyAt0 hp0
  obtain ⟨b0, b1, b2, b3, b4⟩ := before0 V c t
  simp only [b0, b1, b2, b3, b4]
  rw [show (dat0 V c).Φ t.castSucc = PhiS0 V c t.val (Nat.le_of_lt t.isLt) from rfl]
  unfold PhiS0
  iintro ⟨⟨%a, %b, %hab, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hacc := acc0_eq V c t a b hab
  iapply (run0 c (grid0.coords t) _ _ _ _ _ _ _ _ _ _ _ _ _ _ _ _ _ _ _ _ (xa0 V c t) (xv0 V c t) (xe0 V c t) (xw0 V c t) (xb0 V c t)
    ((dat0 V c).before 5 t d5) ((dat0 V c).before 6 t d6) ((dat0 V c).before 7 t d7) a b Set.univ _)
  iframe H0 H1 H2 H3 H4 H5 H6 H7 HS0 HS1
  iintro ⟨H0, H1, H2, H3, H4, H5, H6, H7, HS0, HS1⟩
  iframe Ho H0 H1 H2 H3 H4 H5
  isplitl [HS0 HS1 Hr]
  · iexists _; iexists _; isplitr; · ipureintro; exact fun _ => ⟨hacc.1.symm, hacc.2.symm⟩
    iframe
  isplitl [H6]; · iapply (leaves0_last V c t 6 (by decide) d6 _ ((after0_6 V c t).trans hacc.1)); iexact H6
  iapply (leaves0_last V c t 7 (by decide) d7 _ ((after0_7 V c t).trans hacc.2)); iexact H7

theorem body_obligation0 (c : Dev nD) : BodyObligation (dat0 (F := F) V c) (defs₀ (F := F)) Variants.none () Set.univ := by
  intro t
  rw [bigSep_W0, bigSep_W0]
  exact sound_body0 V c t

-- What the launch hands the region is the invariant before the first point, and after the last point it is given back.
theorem hin0 (c : Dev nD) : (Pipeline.ΦA spec0 c : sProp 𝕄) ⊢ (dat0 V c).Φ 0 := by
  rw [show (dat0 V c).Φ 0 = PhiS0 V c 0 (Nat.zero_le _) from rfl, PhiA0_eq]; unfold PhiS0
  iintro ⟨⟨%a, H0⟩, ⟨%b, H1⟩, Hr⟩
  iexists a; iexists b; isplitr; · ipureintro; exact fun h => absurd rfl h
  iframe

theorem hout0 (c : Dev nD) : (dat0 V c).Φ (Fin.last cfg0.N) ⊢ (Pipeline.ΦA spec0 c : sProp 𝕄) := by
  rw [show (dat0 V c).Φ (Fin.last cfg0.N) = PhiS0 V c cfg0.N (Nat.le_refl _) from rfl, PhiA0_eq]; unfold PhiS0
  iintro ⟨%a, %b, -, H0, H1, Hr⟩
  isplitl [H0]; · iexists _; iexact H0
  isplitl [H1]; · iexists _; iexact H1
  iexact Hr

end Cert.KernelIdeal.Hand

end
-- ==== Proof.FrameKernelIdeal.R1.lean ====
import proofs.«125831_j1151051235416_1_alg».proof.Proof.Gen.KernelIdeal.Launch
import proofs.«125831_j1151051235416_1_alg».proof.Proof.Gen.KernelIdeal.Skeleton
import proofs.«125831_j1151051235416_1_alg».proof.Proof.Gen.KernelIdeal.Points
import proofs.«125831_j1151051235416_1_alg».proof.Proof.Whole
import Idealize.ShloMosaic.Lib.Pipeline.RegionsLoop
import Idealize.ShloMosaic.Lib.Pipeline.FrameSuffix
import Idealize.ShloMosaic.Lib.Ring

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Facts₀ Cert.KernelIdeal.Facts Cert.KernelIdeal.Gen

variable {F : FTy → Type} [FloatOps F]

local notation "𝕄" => MT nD τ sig Unit (Elt F) ℕ (UR sig nD τ) ℕ

/-- The body's first condition: it holds exactly at the grid's first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- Its second condition: it holds exactly at the last point. -/
abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

/-- Windows 8 and 9 take the body's stores at the last point only. -/
theorem idle1 : ∀ w : Fin cfg1.W, 8 ≤ w.val → ∀ t : Fin cfg1.N,
    (¬cond1_1 (grid1.coords t) → cfg1.idle w (grid1.coords t) = true ∧ (cfg1.win w).flush t = false)
      ∧ (cond1_1 (grid1.coords t) → cfg1.idle w (grid1.coords t) = false) := by decide +kernel

/-- The two accumulators after the body: reset first where the first condition holds, then increased by the block's column sums and those of its square. -/
def accs1 (i : grid1.Coords) (p : Vec F S5000x128 .f32) (a : Vec F S1x128 .f32 × Vec F S1x128 .f32) : Vec F S1x128 .f32 × Vec F S1x128 .f32 :=
  (k1_pay1 p (if cond1_0 i then k1_pay3 else a.1), k1_pay2 p (if cond1_0 i then k1_pay4 else a.2))

section
variable (c : Dev nD) (E : Set ℕ) (i : grid1.Coords) (arg1 : Memref sig .tc .vmem S5000x128 .f32) (arg2 arg3 arg4 arg5 : Memref sig .tc .vmem S1x128 .f32)
  (arg6 : Memref sig .tc .vmem S128x128 .f32) (arg7 : Memref sig .tc .vmem S1x128 .f32) (arg8 : Memref sig .tc .vmem S5000x128 .f32)
  (arg9 arg10 arg11 arg12 : Memref sig .tc .vmem S1x128 .f32) (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole) (harg9 : arg9.IsWhole) (harg10 : arg10.IsWhole)
  (harg11 : arg11.IsWhole) (harg12 : arg12.IsWhole) (x0 : Vec F S5000x128 .f32) (x1 x2 x3 x4 : Vec F S1x128 .f32) (x5 : Vec F S128x128 .f32)
  (x6 : Vec F S1x128 .f32) (y7 : Vec F S5000x128 .f32) (y8 y9 a1 a2 : Vec F S1x128 .f32)

/-- The body's twelve buffers, each owned at given contents. -/
def held1 : sProp 𝕄 :=
  iprop(owns c.tc arg1 fullShare x0 ∗ owns c.tc arg2 fullShare x1 ∗ owns c.tc arg3 fullShare x2
    ∗ owns c.tc arg4 fullShare x3 ∗ owns c.tc arg5 fullShare x4 ∗ owns c.tc arg6 fullShare x5
    ∗ owns c.tc arg7 fullShare x6 ∗ owns c.tc arg8 fullShare y7 ∗ owns c.tc arg9 fullShare y8
    ∗ owns c.tc arg10 fullShare y9 ∗ owns c.tc arg11 fullShare a1 ∗ owns c.tc arg12 fullShare a2)

/-- The body on whole buffers: window 7's receives the block of the second affine map, the accumulators its sums, windows 8 and 9's the accumulators where the second condition holds. -/
theorem run1 (K : PUnit → sProp 𝕄) :
    iprop(held1 c arg1 arg2 arg3 arg4 arg5 arg6 arg7 arg8 arg9 arg10 arg11 arg12 x0 x1 x2 x3 x4 x5 x6 y7 y8 y9 a1 a2
        ∗ (held1 c arg1 arg2 arg3 arg4 arg5 arg6 arg7 arg8 arg9 arg10 arg11 arg12 x0 x1 x2 x3 x4 x5 x6 (k1_pay5 x0 x2 x1 x3 x4 x5 x6)
            (if cond1_1 i then (accs1 i (k1_pay5 x0 x2 x1 x3 x4 x5 x6) (a1, a2)).1 else y8) (if cond1_1 i then (accs1 i (k1_pay5 x0 x2 x1 x3 x4 x5 x6) (a1, a2)).2 else y9)
            (accs1 i (k1_pay5 x0 x2 x1 x3 x4 x5 x6) (a1, a2)).1 (accs1 i (k1_pay5 x0 x2 x1 x3 x4 x5 x6) (a1, a2)).2 -∗ K ⟨⟩))
      ⊢ wp frame (wpE (defs₀ (F := F)) Variants.none c none) E (cc1__layer2_kernel i arg1 harg1 arg2 harg2 arg3 harg3 arg4 harg4 arg5 harg5 arg6 harg6 arg7 harg7 arg8 harg8 arg9 harg9 arg10 harg10 arg11 harg11 arg12 harg12) K := by
  unfold held1
  simp only [Cert.Whole.owns_unread c harg1, Cert.Whole.owns_unread c harg2, Cert.Whole.owns_unread c harg3, Cert.Whole.owns_unread c harg4, Cert.Whole.owns_unread c harg5, Cert.Whole.owns_unread c harg6,
    Cert.Whole.owns_unread c harg7, Cert.Whole.owns_unread c harg8, Cert.Whole.owns_unread c harg9, Cert.Whole.owns_unread c harg10, Cert.Whole.owns_unread c harg11, Cert.Whole.owns_unread c harg12]
  simp only [cc1__layer2_kernel_eq_skeleton]; unfold cc1__layer2_kernel_skel
  iintro ⟨⟨H0, H1, H2, H3, H4, H5, H6, H7, H8, H9, H10, H11⟩, Hk⟩
  by_cases hc0 : cond1_0 i <;> by_cases hc1 : cond1_1 i <;>
  · sl_exec (disch := first | exact hc0 | exact hc1)
    sl_step
    iapply Hk
    sl_unfold_run_names
    simp only [accs1, cond1_0, cond1_1, hc0, hc1, ↓reduceIte, Cert.Whole.stored_unread (S := S5000x128) harg8 _ Cert.Whole.zeros, Cert.Whole.stored_unread (S := S1x128) harg9 _ Cert.Whole.zeros,
      Cert.Whole.stored_unread (S := S1x128) harg10 _ Cert.Whole.zeros, Cert.Whole.stored_unread (S := S1x128) harg11 _ Cert.Whole.zeros, Cert.Whole.stored_unread (S := S1x128) harg12 _ Cert.Whole.zeros,
      Cert.Whole.readCov_store (S := S1x128) _ Cert.Whole.zeros, Cert.Whole.load (S := S1x128) _ Cert.Whole.zeros, Cert.Whole.load (S := S5000x128) _ Cert.Whole.zeros,
      Cert.Whole.load (S := S128x128) _ Cert.Whole.zeros]
    iframe

end

variable (V : (c : Dev nD) → (b : Ref sig .tc) → Buf (Elt F) ((c : Thread nD τ).loc b))

/-- The block of window `w`'s array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xh1 (c : Dev nD) (t : Fin cfg1.N) : Vec F S5000x128 .f32 := iblk1 V c 0 t
abbrev xm1 (c : Dev nD) (t : Fin cfg1.N) : Vec F S1x128 .f32 := iblk1 V c 1 t
abbrev xs1 (c : Dev nD) (t : Fin cfg1.N) : Vec F S1x128 .f32 := iblk1 V c 2 t
abbrev xg1 (c : Dev nD) (t : Fin cfg1.N) : Vec F S1x128 .f32 := iblk1 V c 3 t
abbrev xt1 (c : Dev nD) (t : Fin cfg1.N) : Vec F S1x128 .f32 := iblk1 V c 4 t
abbrev xw1 (c : Dev nD) (t : Fin cfg1.N) : Vec F S128x128 .f32 := iblk1 V c 5 t
abbrev xb1 (c : Dev nD) (t : Fin cfg1.N) : Vec F S1x128 .f32 := iblk1 V c 6 t

/-- Window 7's block at point `t`: the second affine map of the normalised, rectified input block. -/
def hp1 (c : Dev nD) (t : Fin cfg1.N) : Vec F S5000x128 .f32 :=
  k1_pay5 (xh1 V c t) (xs1 V c t) (xm1 V c t) (xg1 V c t) (xt1 V c t) (xw1 V c t) (xb1 V c t)

/-- The column sums of window 7's blocks up to position `n`, and of their squares. -/
def acc1 (c : Dev nD) : (n : ℕ) → n < cfg1.N → Vec F S1x128 .f32 × Vec F S1x128 .f32
  | 0, hn => (k1_pay1 (hp1 V c ⟨0, hn⟩) (k1_pay3 (F := F)), k1_pay2 (hp1 V c ⟨0, hn⟩) (k1_pay4 (F := F)))
  | n + 1, hn => (k1_pay1 (hp1 V c ⟨n + 1, hn⟩) (acc1 c n (Nat.lt_of_succ_lt hn)).1, k1_pay2 (hp1 V c ⟨n + 1, hn⟩) (acc1 c n (Nat.lt_of_succ_lt hn)).2)

abbrev scM1_0 : Memref sig .tc .vmem S1x128 .f32 := Memref.whole cc1_scratch0
abbrev scM1_1 : Memref sig .tc .vmem S1x128 .f32 := Memref.whole cc1_scratch1

/-- The rest of the invariant: with the two accumulators back it is what the region was entered with. -/
def rest1 (c : Dev nD) : sProp 𝕄 :=
  iprop(((∃ d, owns c.tc scM1_0 fullShare d) ∗ (∃ d, owns c.tc scM1_1 fullShare d)) -∗ Pipeline.ΦA spec1 c)

/-- The invariant before position `n`: the two accumulators, past the first point at the sums so far, and the rest. -/
def PhiS1 (c : Dev nD) (n : ℕ) (h : n ≤ cfg1.N) : sProp 𝕄 :=
  iprop(∃ a1 a2, ⌜∀ hn : n ≠ 0, (a1, a2) = acc1 V c (n - 1) (by omega)⌝ ∗ owns c.tc scM1_0 fullShare a1 ∗ owns c.tc scM1_1 fullShare a2 ∗ rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => hp1 V c t
    | ⟨8, _⟩ => (acc1 V c t.val t.isLt).1
    | ⟨9, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_7 (c : Dev nD) (t : Fin cfg1.N) : (dat1 V c).after 7 t = hp1 V c t := by dsimp only [dat1]
theorem after1_8 (c : Dev nD) (t : Fin cfg1.N) : (dat1 V c).after 8 t = (acc1 V c t.val t.isLt).1 := by dsimp only [dat1]
theorem after1_9 (c : Dev nD) (t : Fin cfg1.N) : (dat1 V c).after 9 t = (acc1 V c t.val t.isLt).2 := by dsimp only [dat1]

/-- What the region is entered with holds the two accumulators, at some contents. -/
theorem PhiA1_split (c : Dev nD) : (Pipeline.ΦA spec1 c : sProp 𝕄)
    ⊢ iprop((∃ d, owns c.tc scM1_0 fullShare d) ∗ (∃ d, owns c.tc scM1_1 fullShare d) ∗ rest1 c) := by
  unfold rest1 Pipeline.ΦA; rw [scopedRest1_eq]; simp only [scM1_0, scM1_1, owns_whole]
  iintro ⟨⟨B0, B1, B2, B3, B4, B5, B6, B7, B8, B9, B10, B11, B12, S0, S1, C0, C1, C2, C3, C4, C5, C6, C7⟩, Hg⟩
  iframe S0 S1
  iintro ⟨S0, S1⟩
  iframe

/-- The sums after a point are one step of the body from the sums before it, at the first point from anything. -/
theorem acc1_eq (c : Dev nD) (t : Fin cfg1.N) (a) (ha : ∀ hn : t.val ≠ 0, a = acc1 V c (t.val - 1) (by omega)) :
    acc1 V c t.val t.isLt = accs1 (grid1.coords t) (hp1 V c t) a := by
  unfold accs1
  obtain ⟨n, hn⟩ := t
  cases n with
  | zero => rw [if_pos ((hcond1_0 _).mpr rfl), if_pos ((hcond1_0 _).mpr rfl)]; rfl
  | succ n =>
    rw [if_neg fun h => Nat.succ_ne_zero n ((hcond1_0 _).mp h), if_neg fun h => Nat.succ_ne_zero n ((hcond1_0 _).mp h), ha (Nat.succ_ne_zero n)]; rfl

/-- At every point the buffers of the seven input windows hold their blocks. -/
theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t) ∧ (∀ d, (dat1 V c).before 4 t d = iblk1 V c 4 t)
    ∧ (∀ d, (dat1 V c).before 5 t d = iblk1 V c 5 t) ∧ (∀ d, (dat1 V c).before 6 t d = iblk1 V c 6 t) := by
  refine ⟨?_, ?_, ?_, ?_, ?_, ?_, ?_⟩ <;> intro d <;>
  exact ((dat1 V c).before_in_eq_fetched _ rfl (fun _ => rfl) (fun _ _ _ => rfl) (fun _ => rfl) t d).trans rfl

/-- Windows 8 and 9 are handed back at the sums at the last point, as found at the others. -/
theorem leaves1_out (c : Dev nD) (t : Fin cfg1.N) (w : Fin cfg1.W) (hw : 8 ≤ w.val) (d) (X) (hX : (dat1 V c).after w t = X) :
    owns c.tc ((cfg1.win w).stage (cfg1.slots t w)) fullShare (if cond1_1 (grid1.coords t) then X else (dat1 V c).before w t d)
      ⊢ (dat1 V c).leavesExact w t := by
  subst hX
  by_cases h : cond1_1 (grid1.coords t)
  · rw [if_pos h]; unfold Dat.leavesExact; rw [(idle1 w hw t).2 h]
  · rw [if_neg h, Dat.leavesExact_idle _ w t ((idle1 w hw t).1 h).1 ((idle1 w hw t).1 h).2]
    iintro H; iexists d; iexact H

/-- What the body leaves at point `t`: the sums stepped, the inputs' buffers at their blocks, window 7's at its block. -/
def bodyPost1 (c : Dev nD) (t : Fin cfg1.N) : sProp 𝕄 :=
  iprop(PhiS1 V c (t.val + 1) t.isLt
    ∗ (dat1 V c).owesAt () t.castSucc
    ∗ owns c.tc (st1_0 t) fullShare (xh1 V c t)
    ∗ owns c.tc (st1_1 t) fullShare (xm1 V c t)
    ∗ owns c.tc (st1_2 t) fullShare (xs1 V c t)
    ∗ owns c.tc (st1_3 t) fullShare (xg1 V c t)
    ∗ owns c.tc (st1_4 t) fullShare (xt1 V c t)
    ∗ owns c.tc (st1_5 t) fullShare (xw1 V c t)
    ∗ owns c.tc (st1_6 t) fullShare (xb1 V c t)
    ∗ owns c.tc (st1_7 t) fullShare (hp1 V c t)
    ∗ (dat1 V c).leavesExact 8 t
    ∗ (dat1 V c).leavesExact 9 t)

/-- The body at any point is one step of the sums. -/
theorem body_obligation1 (c : Dev nD) : BodyObligation (dat1 (F := F) V c) (defs₀ (F := F)) Variants.none () Set.univ := by
  intro t
  rw [bigSep_W1, bigSep_W1]
  show _ ⊢ wp frame _ Set.univ (bodyAt1 t) (fun _ => bodyPost1 V c t)
  unfold bodyPost1 bodyAt1 hp1
  obtain ⟨b0, b1, b2, b3, b4, b5, b6⟩ := before1 V c t
  simp only [b0, b1, b2, b3, b4, b5, b6]
  rw [show (dat1 V c).Φ t.castSucc = PhiS1 V c t.val (Nat.le_of_lt t.isLt) from rfl]
  unfold PhiS1
  iintro ⟨⟨%a1, %a2, %ha, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e := acc1_eq V c t (a1, a2) ha
  unfold hp1 at e
  iapply (run1 c Set.univ (grid1.coords t) _ _ _ _ _ _ _ _ _ _ _ _ _ _ _ _ _ _ _ _ _ _ _ _ (xh1 V c t) (xm1 V c t) (xs1 V c t) (xg1 V c t) (xt1 V c t) (xw1 V c t) (xb1 V c t)
    ((dat1 V c).before 7 t d7) ((dat1 V c).before 8 t d8) ((dat1 V c).before 9 t d9) a1 a2 _)
  unfold held1
  iframe H0 H1 H2 H3 H4 H5 H6 H7 H8 H9 HS0 HS1
  iintro ⟨H0, H1, H2, H3, H4, H5, H6, H7, H8, H9, HS0, HS1⟩
  iframe H0 H1 H2 H3 H4 H5 H6 H7 Ho
  isplitl [HS0 HS1 Hr]
  · iexists _, _; iframe HS0 HS1 Hr; ipureintro; exact fun _ => e.symm
  isplitl [H8]
  · iapply (leaves1_out V c t 8 (by decide) d8 _ ((after1_8 V c t).trans (congrArg Prod.fst e))) $$ H8
  iapply (leaves1_out V c t 9 (by decide) d9 _ ((after1_9 V c t).trans (congrArg Prod.snd e))) $$ H9

theorem hin1 (c : Dev nD) : (Pipeline.ΦA spec1 c : sProp 𝕄) ⊢ (dat1 V c).Φ 0 := by
  rw [show (dat1 V c).Φ 0 = PhiS1 V c 0 (Nat.zero_le _) from rfl]; unfold PhiS1
  refine (PhiA1_split c).trans ?_
  iintro ⟨⟨%a1, H0⟩, ⟨%a2, H1⟩, Hr⟩; iexists a1, a2; iframe; ipureintro; exact fun h => absurd rfl h

/-- After the last point the invariant gives back what the region was entered with. -/
theorem hout1 (c : Dev nD) : (dat1 V c).Φ (Fin.last cfg1.N) ⊢ (Pipeline.ΦA spec1 c : sProp 𝕄) := by
  rw [show (dat1 V c).Φ (Fin.last cfg1.N) = PhiS1 V c cfg1.N (Nat.le_refl _) from rfl]; unfold PhiS1 rest1
  iintro ⟨%a1, %a2, -, H0, H1, Hr⟩
  iapply Hr
  isplitl [H0]; · iexists _; iexact H0
  iexists _; iexact H1

end Cert.KernelIdeal.Hand

end
-- ==== Proof.FrameKernelIdeal.R2.lean ====
import proofs.«125831_j1151051235416_1_alg».proof.Proof.Gen.KernelIdeal.Launch
import proofs.«125831_j1151051235416_1_alg».proof.Proof.Gen.KernelIdeal.Skeleton
import proofs.«125831_j1151051235416_1_alg».proof.Proof.Gen.KernelIdeal.Points
import proofs.«125831_j1151051235416_1_alg».proof.Proof.Whole
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xh2 (c : Dev nD) (t : Fin cfg2.N) : Vec F S5000x128 .f32 := iblk2 V c 0 t
abbrev xm2 (c : Dev nD) (t : Fin cfg2.N) : Vec F S1x128 .f32 := iblk2 V c 1 t
abbrev xs2 (c : Dev nD) (t : Fin cfg2.N) : Vec F S1x128 .f32 := iblk2 V c 2 t
abbrev xg2 (c : Dev nD) (t : Fin cfg2.N) : Vec F S1x128 .f32 := iblk2 V c 3 t
abbrev xt2 (c : Dev nD) (t : Fin cfg2.N) : Vec F S1x128 .f32 := iblk2 V c 4 t

def hp2 (c : Dev nD) (t : Fin cfg2.N) : Vec F S5000x128 .f32 :=
  k2_pay1 (xh2 V c t) (xs2 V c t) (xm2 V c t) (xg2 V c t) (xt2 V c t)

-- Each input's buffer stays at its block of the array and the output's ends at the payload of those blocks.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => hp2 V c t
  Φ _ := Pipeline.ΦA spec2 c
  q _ := fullShare
  owed _ := 0

theorem A_eq2 (c : Dev nD) (w : Fin cfg2.W) : (dat2 V c).A w = V c (Pipeline.arrRef spec2 w) := rfl
theorem after2_5 (c : Dev nD) (t : Fin cfg2.N) : (dat2 V c).after 5 t = hp2 V c t := rfl

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ ∀ d, (dat2 V c).before 4 t d = iblk2 V c 4 t := by
  refine ⟨?_, ?_, ?_, ?_, ?_⟩ <;>
    exact fun d => ((dat2 V c).before_in_eq_fetched _ rfl (fun _ => rfl) (fun _ _ _ => rfl) (fun _ => rfl) t d).trans rfl

-- The body loads its five inputs and stores the payload of what it loaded over the whole output buffer.
theorem body_obligation2 (c : Dev nD) : BodyObligation (dat2 (F := F) V c) (defs₀ (F := F)) Variants.none () Set.univ := fun t => by
  obtain ⟨b0, b1, b2, b3, b4⟩ := before2 V c t
  rw [bigSep_W2, bigSep_W2, show (dat2 V c).Φ t.succ = (dat2 V c).Φ t.castSucc from rfl,
    show (dat2 V c).owesAt () t.succ = (dat2 V c).owesAt () t.castSucc from rfl, after2_5]
  simp only [b0, b1, b2, b3, b4]
  change _ ⊢ wp _ _ _ (bodyAt2 t) _
  unfold bodyAt2 hp2
  simp only [cc2__layer3_kernel_eq_skeleton]; unfold cc2__layer3_kernel_skel owns
  iintro ⟨HΦ, Ho, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩⟩
  sl_exec
  sl_step
  iframe HΦ Ho
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _; isplitr
  swap; · iexact H6
  ipureintro
  refine (Cert.Whole.read_store _ f6 Cert.Whole.zeros _ _ _).trans ?_
  refine congr (congr (congr (congr (congrArg _ ?_) ?_) ?_) ?_) ?_ <;> exact (View.ld_unit_zero Cert.Whole.zeros _ _).trans ‹_›

end Cert.KernelIdeal.Hand

end
-- ==== Proof.FrameKernelIdeal.Run.lean ====
import proofs.«125831_j1151051235416_1_alg».proof.Proof.FrameKernelIdeal.R0
import proofs.«125831_j1151051235416_1_alg».proof.Proof.FrameKernelIdeal.R1
import proofs.«125831_j1151051235416_1_alg».proof.Proof.FrameKernelIdeal.R2
import proofs.«125831_j1151051235416_1_alg».proof.Proof.Gen.KernelIdeal.Regions
import Idealize.ShloMosaic.Lib.Pipeline.RegionsLoop
import Idealize.ShloMosaic.Lib.Pipeline.FrameSuffix

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N :=
  Pipeline.withArrays_arr spec0 launch0.win.arr_inj c _ _ w
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N :=
  Pipeline.withArrays_arr spec1 launch1.win.arr_inj c _ _ w
abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w

-- A kernel call changes none of the buffers it is entered with but its output arrays.
theorem keep_of {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Proc.devRef .tc (Pipeline.arrRef cfg.spec w)))
    (b : Ref sig .tc) (hb : ∀ w, Pipeline.arrRef cfg.spec w = b → (cfg.win w).isOut = false) :
    Pipeline.withArrays cfg.spec c V (fun w => D.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((D.arrAt_in w (hb w rfl) _).trans (hA w))
  · exact Pipeline.withArrays_of_ne _ c _ _ b fun w e => h ⟨w, e⟩
theorem W2_keep (c : Dev nD) (b : Ref sig .tc) (hb : b ∉ ([main_v20_0, main_v20_1, main_v20_2] : List (Ref sig .tc))) :
    W2 m c (Proc.devRef .tc b) = W1 m c (Proc.devRef .tc b) :=
  keep_of (dat0 (U1 m) c) (W1 m c) launch0.win.arr_inj (A_eq0 (U1 m) c) b (by rintro w rfl; revert w; decide)
theorem W4_keep (c : Dev nD) (b : Ref sig .tc) (hb : b ∉ ([main_v27_0, main_v27_1, main_v27_2] : List (Ref sig .tc))) :
    W4 m c (Proc.devRef .tc b) = W3 m c (Proc.devRef .tc b) :=
  keep_of (dat1 (U3 m) c) (W3 m c) launch1.win.arr_inj (A_eq1 (U3 m) c) b (by rintro w rfl; revert w; decide)

theorem W6_kept (c : Dev nD) (b : Ref sig .tc) (h0 : b ∉ hostOps0_W) (h1 : b ∉ hostOps1_W) (h2 : b ∉ hostOps2_W)
    (ha : b ∉ ([main_v20_0, main_v20_1, main_v20_2] : List (Ref sig .tc)))
    (hb : b ∉ ([main_v27_0, main_v27_1, main_v27_2] : List (Ref sig .tc)))
    (hc : b ∉ ([main_v34] : List (Ref sig .tc))) :
    W6 m c (Proc.devRef .tc b) = m ((c : Thread nD τ).loc b) :=
  (keep_of (dat2 (U5 m) c) (W5 m c) launch2.win.arr_inj (A_eq2 (U5 m) c) b (by rintro w rfl; revert w; decide)).trans <|
    (StableHlo.after_of_writes_sub hostOps2 _ hostOps2_writes h2).trans <|
    (W4_keep m c b hb).trans <| (StableHlo.after_of_writes_sub hostOps1 _ hostOps1_writes h1).trans <|
    (W2_keep m c b ha).trans <| StableHlo.after_of_writes_sub hostOps0 _ hostOps0_writes h0

def pdats : (p : Fin 3) → (c : Dev nD) → Dat τ (Elt F) Unit ℕ (UR sig nD τ) ℕ (Pipeline.pin (pcfgs (F := F)) adm p) c
  | ⟨0, _⟩ => dat0 (U1 m)
  | ⟨1, _⟩ => dat1 (U3 m)
  | ⟨2, _⟩ => dat2 (U5 m)
abbrev 𝒱₀ : Variants := Variants.none
abbrev L0 : GSem nD τ sig → Finset Unit := fun _ => ∅
abbrev lv0 : GSem nD τ sig → Unit → ℕ := fun _ _ => 0
abbrev R (c : Dev nD) : sProp 𝕄 := iprop((∃ r, prngReg c r) ∗ ∃ W, owes (c : Thread nD τ) (0 : CellTallies nD τ sig Unit) W)
abbrev held (V : Dev nD → Valuation τ sig (Elt F)) (c : Dev nD) : sProp 𝕄 :=
  iprop(StableHlo.held (c : Thread nD τ) (Pipeline.ucRefs τ sig) (V c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem pd_facts : ∀ (p : Fin 3) (c : Dev nD), (∀ w, (pdats m p c).q w = fullShare) ∧ (∀ t, (pdats m p c).owed t = 0)
      ∧ ∀ t, (pdats m p c).recorded t = Set.univ
  | ⟨0, _⟩, _ => ⟨fun _ => rfl, fun _ => rfl, fun _ => rfl⟩
  | ⟨1, _⟩, _ => ⟨fun _ => rfl, fun _ => rfl, fun _ => rfl⟩
  | ⟨2, _⟩, _ => ⟨fun _ => rfl, fun _ => rfl, fun _ => rfl⟩

-- A kernel call as a segment: entered with every unscoped buffer at `V`, left with its arrays final and the others as entered.
def reg (p : Fin 3) (lf : Pipeline.LaunchFacts (nD := nD) (τ := τ) cfgs p) (V : Dev nD → Valuation τ sig (Elt F))
    (hb : ∀ c, BodyObligation (pdats m p c) (defs₀ (F := F)) 𝒱₀ () Set.univ)
    (hA : ∀ c w, (pdats m p c).A w = V c (Proc.devRef .tc (Pipeline.arrRef (cfgs p).spec w)))
    (hi : ∀ c, (Pipeline.ΦA (cfgs p).spec c : sProp 𝕄) ⊢ (pdats m p c).Φ 0)
    (ho : ∀ c, (pdats m p c).Φ (Fin.last _) ⊢ (Pipeline.ΦA (cfgs p).spec c : sProp 𝕄)) :
    Pipeline.RegionSeg (pcfgs (F := F)) adm (pdats m) () defs₀ 𝒱₀ L0 lv0 p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L0 lv0 p fun c => (pd_facts m p c).2.1
  pre := held V
  post := held fun c => Pipeline.withArrays (cfgs p).spec c (V c) fun w => (pdats m p c).arrAt w (cfgs p).N
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨hq, hz, hr⟩ := pd_facts m p c
    rw [Pipeline.ownSems0_none]
    have hsplit := Pipeline.arrays_of_unscopedBufs (p := p) (pcfgs (F := F)) adm (pdats m) lf.win lf.arr_whole c
      ((pdats m p c).share_full hq) (fun b => V c b) (hA c)
    rw [Pipeline.unscopedBufs_held] at hsplit
    unfold Pipeline.Dat.owesAt Pipeline.owesWithin Pipeline.Dat.bound; rw [hz, hr]
    iintro ⟨⟨Hub, Hp, %W, HO⟩, -, -⟩
    ihave H := hsplit $$ Hub
    icases H with ⟨Ha, Hrest⟩
    imodintro
    iframe Ha Hp
    isplitr; · unfold Pipeline.prefHeld; rw [show (Finset.univ : Finset (Fin 0)) = ∅ from rfl, BI.bigSep_empty]; iempintro
    isplitl [HO]
    · iexists W; isplitr; · ipureintro; exact fun _ _ => Or.inl trivial
      iexact HO
    iexact Hrest
  hin c := by
    refine .trans ?_ (hi c); unfold Pipeline.ΦA
    iintro ⟨Hp, -, Hr⟩
    isplitl [Hr]; · iexact Hr
    iexact Hp
  hout c := by
    rw [Pipeline.ownSems0_none]; refine (ho c).trans ?_; unfold Pipeline.ΦA
    iintro ⟨Hr, Hp⟩
    isplitl [Hp]; · iexact Hp
    isplitr; · iempintro
    iexact Hr
  hexit c := by
    obtain ⟨hq, hz, -⟩ := pd_facts m p c
    have hjoin := Pipeline.unscopedBufs_of_arrays (p := p) (pcfgs (F := F)) adm (Ix := Unit) (Name := ℕ) (U := UR sig nD τ) (Lvl := ℕ)
      lf.win lf.arr_whole c (pdats m) ((pdats m p c).share_full hq) (fun b => V c b)
      (fun b => Pipeline.withArrays (cfgs p).spec c (V c) (fun w => (pdats m p c).arrAt w (cfgs p).N) b) _
      (fun w => (Pipeline.withArrays_arr (cfgs p).spec lf.win.arr_inj c (V c) (fun w => (pdats m p c).arrAt w (cfgs p).N) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin; rw [hz]
    iintro ⟨Ha, ⟨%W, -, HO⟩, HY, Hrest⟩
    imodintro
    isplitl [Ha Hrest]
    · iapply hjoin; isplitl [Ha] <;> iassumption
    isplitl [HY]; · iexact HY
    iexists W; iexact HO

abbrev hsegs : List (Pipeline.Seg (pcfgs (F := F)) adm (pdats m) () defs₀ 𝒱₀ L0 lv0) :=
  [ .host (hseg hostOps0 hostOps0_sub hostOps0_fresh (W0 m)),
    .region (reg m 0 launch0 (W1 m) (body_obligation0 (U1 m)) (A_eq0 (U1 m)) (hin0 (U1 m)) (hout0 (U1 m))),
    .host (hseg hostOps1 hostOps1_sub hostOps1_fresh (W2 m)),
    .region (reg m 1 launch1 (W3 m) (body_obligation1 (U3 m)) (A_eq1 (U3 m)) (hin1 (U3 m)) (hout1 (U3 m))),
    .host (hseg hostOps2 hostOps2_sub hostOps2_fresh (W4 m)),
    .region (reg m 2 launch2 (W5 m) (body_obligation2 (U5 m)) (A_eq2 (U5 m)) (fun _ => .rfl) fun _ => .rfl) ]
theorem main_run (c : Dev nD) : main (F := F) c = Pipeline.Seg.run (hsegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- Every weakly fair execution terminates, and the final memory holds every unscoped buffer at the last boundary's contents.
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L0 lv0 m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := held (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

-- No argument array is scoped, written by a host operation, or an output array of a kernel call.
theorem args_kept : ∀ b ∈ ([main_arg0, main_arg1, main_arg2, main_arg3, main_arg4, main_arg5, main_arg6, main_arg7, main_arg8, main_arg9,
      main_arg10, main_arg11, main_arg12] : List (Ref sig .tc)),
    ¬ (Proc.devRef .tc b : DevRef τ sig).isScoped ∧ b ∉ hostOps0_W ∧ b ∉ hostOps1_W ∧ b ∉ hostOps2_W
      ∧ b ∉ ([main_v20_0, main_v20_1, main_v20_2] : List (Ref sig .tc)) ∧ b ∉ ([main_v27_0, main_v27_1, main_v27_2] : List (Ref sig .tc))
      ∧ b ∉ ([main_v34] : List (Ref sig .tc)) := by decide

-- Every argument array holds what it held at launch.
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)

theorem run_out (ρ : Dev nD → PrngReg) : θ_run defs (onTc (τ := τ) (main (F := F))) ⟨m, fun _ => 0, ρ⟩ (fun r => ∀ c : Dev nD,
      r.2.mem ((c.tc : Thread nD τ).loc main_v34) = W6 m c (Proc.devRef .tc main_v34) ∧ ArgsKept m r.2 c) :=
  (θ_run defs _ _).mono (fun r h c => by
    have k := fun b hb => match args_kept b hb with
      | ⟨h0, h1, h2, h3, h4, h5, h6⟩ => (h c _ (mem_uc b h0)).trans (W6_kept m c b h1 h2 h3 h4 h5 h6)
    exact ⟨h c _ (mem_uc main_v34 (by decide)), k _ (by decide), k _ (by decide), k _ (by decide), k _ (by decide), k _ (by decide),
      k _ (by decide), k _ (by decide), k _ (by decide), k _ (by decide), k _ (by decide), k _ (by decide), k _ (by decide), k _ (by decide)⟩)
    (run_all m ρ)

theorem frame (ρ : Dev nD → PrngReg) : θ_run defs (onTc (τ := τ) (main (F := F))) ⟨m, fun _ => 0, ρ⟩ (fun r => ∀ c : Dev nD, ArgsKept m r.2 c) :=
  (θ_run defs _ _).mono (fun r h c => (h c).2) (run_out m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![100000, 128]⟩
abbrev SW : Shape := ⟨2, ![128, 128]⟩
abbrev SR : Shape := ⟨2, ![1, 128]⟩
abbrev SV : Shape := ⟨1, ![128]⟩

abbrev Mat := Fin 100000 → Fin 128 → EReal
abbrev Row := Fin 128 → EReal
abbrev Wt := Fin 128 → Fin 128 → EReal

def toMat (x : SN.Idx → EReal) : Mat := fun p q => x (ix2 p q)
def ofMat (M : Mat) : SN.Idx → EReal := fun i => M (i 0) (i 1)
def toWt (x : SW.Idx → EReal) : Wt := fun k q => x (ix2 k q)
def toRow1 (x : SR.Idx → EReal) : Row := fun q => x (ix2 0 q)
def ofRow1 (r : Row) : SR.Idx → EReal := fun i => r (i 1)
def toRowV (x : SV.Idx → EReal) : Row := fun q => x (ix1 q)

theorem toMat_ofMat (M : Mat) : toMat (ofMat M) = M := rfl
theorem ofMat_toMat (x : SN.Idx → EReal) : ofMat (toMat x) = x := funext fun i => congrArg x (eq_ix2 i).symm

def bnEps : EReal := Ideal.ofBits .f32 0x3727C5AC#32
def nRows : EReal := Ideal.ofBits .f32 0x47C35000#32

def mix (A v : Mat) (e : Row) : Mat := fun p q => A p q + e q * v p q
def lin (X : Mat) (W : Wt) (b : Row) : Mat := fun p q => (∑ k : Fin 128, X p k * W k q) + b q
def colsum (Y : Mat) : Row := fun q => ∑ p : Fin 100000, Y p q
def sq (Y : Mat) : Mat := fun p q => Y p q * Y p q
def mean (Y : Mat) : Row := fun q => Ideal.div (colsum Y q) nRows
-- The variance as the mean of the squares minus the square of the mean.
def varK (Y : Mat) : Row := fun q => Ideal.div (colsum (sq Y) q) nRows - mean Y q * mean Y q
-- The variance as the mean of the squared deviations.
def varR (Y : Mat) : Row := fun q => Ideal.div (colsum (sq fun p q => Y p q - mean Y q) q) nRows
def bnrelu (Y : Mat) (mu var g be : Row) : Mat :=
  fun p q => max ((Y p q - mu q) * Ideal.rsqrt (var q + bnEps) * g q + be q) 0

def netK (A v : Mat) (e : Row) (W1 : Wt) (b1 g1 be1 : Row) (W2 : Wt) (b2 g2 be2 : Row) : Mat :=
  bnrelu (lin (bnrelu (lin (mix A v e) W1 b1) (mean (lin (mix A v e) W1 b1)) (varK (lin (mix A v e) W1 b1)) g1 be1) W2 b2)
    (mean (lin (bnrelu (lin (mix A v e) W1 b1) (mean (lin (mix A v e) W1 b1)) (varK (lin (mix A v e) W1 b1)) g1 be1) W2 b2))
    (varK (lin (bnrelu (lin (mix A v e) W1 b1) (mean (lin (mix A v e) W1 b1)) (varK (lin (mix A v e) W1 b1)) g1 be1) W2 b2)) g2 be2

-- One layer with the second reading of the variance, and the network of two such layers.
def layerR (X : Mat) (W : Wt) (b g be : Row) : Mat := bnrelu (lin X W b) (mean (lin X W b)) (varR (lin X W b)) g be
def netR (A v : Mat) (e : Row) (W1 : Wt) (b1 g1 be1 : Row) (W2 : Wt) (b2 g2 be2 : Row) : Mat :=
  layerR (layerR (mix A v e) W1 b1 g1 be1) W2 b2 g2 be2

def IsReal (x : EReal) : Prop := ∃ r : ℝ, x = (r : EReal)

-- The row count is 100000 = (2^23 + 4411392) · 2^(143 - 150).
theorem nRows_eq : nRows = ((100000 : ℝ) : EReal) := by
  simp [nRows, Ideal.ofBits, Ideal.ieee, -EReal.coe_mul]; norm_num

-- The epsilon is the positive real (2^23 + 2606508) · 2^(110 - 150).
theorem bnEps_pos : ∃ ε : ℝ, 0 < ε ∧ bnEps = (ε : EReal) := by
  refine ⟨(10995116 : ℝ) * (2 : ℝ) ^ (-40 : Int), by positivity, ?_⟩
  simp [bnEps, Ideal.ofBits, Ideal.ieee, -EReal.coe_mul]

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem coe_sum {ι : Type} (s : Finset ι) (f : ι → ℝ) :
    ((∑ i ∈ s, f i : ℝ) : EReal) = ∑ i ∈ s, ((f i : ℝ) : EReal) := by
  classical
  exact Finset.induction_on s (by simp) fun a s ha ih => by
    rw [Finset.sum_insert ha, Finset.sum_insert ha, EReal.coe_add, ih]

theorem isReal_sum {ι : Type} (s : Finset ι) (f : ι → EReal) (h : ∀ i ∈ s, IsReal (f i)) :
    IsReal (∑ i ∈ s, f i) :=
  Finset.sum_induction f IsReal (fun _ _ => IsReal.add) IsReal.zero h

-- A matrix of real numbers, entry by entry among the extended reals.
def cm (y : Fin 100000 → Fin 128 → ℝ) : Mat := fun p q => (y p q : EReal)

theorem exists_coe_mat {Y : Mat} (hY : ∀ p q, IsReal (Y p q)) : ∃ y, Y = cm y := by
  choose y hy using hY
  exact ⟨y, funext fun p => funext fun q => hy p q⟩

section
variable (y : Fin 100000 → Fin 128 → ℝ) (q : Fin 128)

theorem colsum_coe : colsum (cm y) q = ((∑ p, y p q : ℝ) : EReal) := (coe_sum Finset.univ fun p => y p q).symm

theorem sq_coe : sq (cm y) = cm fun p q => y p q * y p q := funext fun _ => funext fun _ => (EReal.coe_mul _ _).symm

theorem mean_coe : mean (cm y) q = (((∑ p, y p q) * (1 / 100000) : ℝ) : EReal) := by
  show Ideal.div (colsum (cm y) q) nRows = _
  rw [colsum_coe, nRows_eq, Ideal.div_coe (by norm_num), ← EReal.coe_mul]

theorem varK_coe : varK (cm y) q
    = (((∑ p, y p q * y p q) * (1 / 100000) - (∑ p, y p q) * (1 / 100000) * ((∑ p, y p q) * (1 / 100000)) : ℝ) : EReal) := by
  show Ideal.div (colsum (sq (cm y)) q) nRows - mean (cm y) q * mean (cm y) q = _
  rw [sq_coe, colsum_coe, mean_coe, nRows_eq, Ideal.div_coe (by norm_num), ← EReal.coe_mul, ← EReal.coe_mul, ← EReal.coe_sub]

theorem varR_coe : varR (cm y) q
    = (((∑ p, (y p q - (∑ p, y p q) * (1 / 100000)) * (y p q - (∑ p, y p q) * (1 / 100000))) * (1 / 100000) : ℝ) : EReal) := by
  have h : (fun p q => cm y p q - mean (cm y) q) = cm fun p q => y p q - (∑ p, y p q) * (1 / 100000) := by
    funext p q; rw [mean_coe]; exact (EReal.coe_sub _ _).symm
  show Ideal.div (colsum (sq fun p q => cm y p q - mean (cm y) q) q) nRows = _
  rw [h, sq_coe, colsum_coe, nRows_eq, Ideal.div_coe (by norm_num), ← EReal.coe_mul]

end

-- Over the reals the mean of the squared deviations from the mean is the mean of the squares minus the square of the mean.
theorem real_var_eq (f : Fin 100000 → ℝ) :
    (∑ p, (f p - (∑ p, f p) * (1 / 100000)) * (f p - (∑ p, f p) * (1 / 100000))) * (1 / 100000)
      = (∑ p, f p * f p) * (1 / 100000) - (∑ p, f p) * (1 / 100000) * ((∑ p, f p) * (1 / 100000)) := by
  have h1 : ∀ c p, (f p - c) * (f p - c) = f p * f p - 2 * c * f p + c * c := fun c p => by ring
  simp only [h1, Finset.sum_add_distrib, Finset.sum_sub_distrib, ← Finset.mul_sum, Finset.sum_const,
    Finset.card_univ, Fintype.card_fin, nsmul_eq_mul]
  push_cast; ring

theorem varK_eq_varR (Y : Mat) (hY : ∀ p q, IsReal (Y p q)) : varK Y = varR Y := by
  obtain ⟨y, rfl⟩ := exists_coe_mat hY
  funext q
  rw [varK_coe, varR_coe]
  exact congrArg _ (real_var_eq fun p => y p q).symm

theorem isReal_mix (A v : Mat) (e : Row) (hA : ∀ p q, IsReal (A p q)) (hv : ∀ p q, IsReal (v p q))
    (he : ∀ q, IsReal (e q)) : ∀ p q, IsReal (mix A v e p q) :=
  fun p q => (hA p q).add ((he q).mul (hv p q))

theorem isReal_lin (X : Mat) (W : Wt) (b : Row) (hX : ∀ p q, IsReal (X p q)) (hW : ∀ k q, IsReal (W k q))
    (hb : ∀ q, IsReal (b q)) : ∀ p q, IsReal (lin X W b p q) :=
  fun p q => (isReal_sum _ _ fun k _ => (hX p k).mul (hW k q)).add (hb q)

theorem isReal_mean (Y : Mat) (hY : ∀ p q, IsReal (Y p q)) : ∀ q, IsReal (mean Y q) := by
  obtain ⟨y, rfl⟩ := exists_coe_mat hY
  exact fun q => ⟨_, mean_coe y q⟩

-- The variance of a real matrix is a nonnegative real: a sum of squares over 100000.
theorem varR_nonneg (Y : Mat) (hY : ∀ p q, IsReal (Y p q)) : ∀ q, ∃ r : ℝ, 0 ≤ r ∧ varR Y q = (r : EReal) := by
  obtain ⟨y, rfl⟩ := exists_coe_mat hY
  exact fun q => ⟨_, mul_nonneg (Finset.sum_nonneg fun p _ => mul_self_nonneg _) (by norm_num), varR_coe y q⟩

-- The reciprocal square root of a nonnegative real plus the epsilon is real: its argument is a positive real.
theorem isReal_rsqrt_add_eps {x : EReal} (hx : ∃ r : ℝ, 0 ≤ r ∧ x = (r : EReal)) : IsReal (Ideal.rsqrt (x + bnEps)) := by
  obtain ⟨r, hr0, rfl⟩ := hx
  obtain ⟨ε, hε, hεq⟩ := bnEps_pos
  have hpos : 0 < r + ε := by linarith
  rw [hεq, ← EReal.coe_add, Ideal.rsqrt_coe, if_neg (not_lt.2 hpos.le), if_neg hpos.ne']
  exact ⟨_, rfl⟩

theorem isReal_bnrelu (Y : Mat) (mu var g be : Row) (hY : ∀ p q, IsReal (Y p q)) (hmu : ∀ q, IsReal (mu q))
    (hvar : ∀ q, ∃ r : ℝ, 0 ≤ r ∧ var q = (r : EReal)) (hg : ∀ q, IsReal (g q)) (hbe : ∀ q, IsReal (be q)) :
    ∀ p q, IsReal (bnrelu Y mu var g be p q) :=
  fun p q => (((((hY p q).sub (hmu q)).mul (isReal_rsqrt_add_eps (hvar q))).mul (hg q)).add (hbe q)).max IsReal.zero

-- On real entries the two readings of the variance agree layer after layer, so the two networks are one function.
theorem netK_eq_netR (A v : Mat) (e : Row) (W1 : Wt) (b1 g1 be1 : Row) (W2 : Wt) (b2 g2 be2 : Row)
    (hA : ∀ p q, IsReal (A p q)) (hv : ∀ p q, IsReal (v p q)) (he : ∀ q, IsReal (e q))
    (hW1 : ∀ k q, IsReal (W1 k q)) (hb1 : ∀ q, IsReal (b1 q)) (hg1 : ∀ q, IsReal (g1 q)) (hbe1 : ∀ q, IsReal (be1 q))
    (hW2 : ∀ k q, IsReal (W2 k q)) (hb2 : ∀ q, IsReal (b2 q)) :
    netK A v e W1 b1 g1 be1 W2 b2 g2 be2 = netR A v e W1 b1 g1 be1 W2 b2 g2 be2 := by
  have hY1 := isReal_lin _ _ _ (isReal_mix _ _ _ hA hv he) hW1 hb1
  have e1 := varK_eq_varR _ hY1
  have e2 := varK_eq_varR _ (isReal_lin _ _ _
    (isReal_bnrelu _ _ _ _ _ hY1 (isReal_mean _ hY1) (varR_nonneg _ hY1) hg1 hbe1) hW2 hb2)
  unfold netK netR layerR
  rw [e1, e2]

end Cert.Spec

end
-- ==== Proof.BlockSum.lean ====
import Mathlib.Data.EReal.Basic
import Mathlib.Algebra.BigOperators.Fin
import Mathlib.Logic.Equiv.Fin.Basic

noncomputable section

namespace Cert.Spec

-- Row `r` of block `t` is row 5000 · t + r of the whole.
def blockRow (t : Fin 20) (r : Fin 5000) : Fin 100000 :=
  ⟨5000 * t.val + r.val, by have := t.isLt; have := r.isLt; omega⟩

-- Pairs (block, row in the block) correspond one to one to rows, and a sum over pairs is an iterated sum.
theorem sum_blocks (f : Fin 100000 → EReal) :
    ∑ p : Fin 100000, f p = ∑ t : Fin 20, ∑ r : Fin 5000, f (blockRow t r) := by
  rw [← Fintype.sum_prod_type' (fun t r => f (blockRow t r))]
  exact (Fintype.sum_equiv (finProdFinEquiv : Fin 20 × Fin 5000 ≃ Fin 100000) _ _
    fun x => congrArg f (Fin.ext (Nat.add_comm _ _))).symm

-- By induction on the step, the value after step `n` is the sum of the terms of steps 0 to `n`.
theorem acc_last (a : (n : ℕ) → n < 20 → EReal) (g : Fin 20 → EReal)
    (h0 : a 0 (by decide) = 0 + g 0)
    (hs : ∀ n (hn : n + 1 < 20), a (n + 1) hn = a n (Nat.lt_of_succ_lt hn) + g ⟨n + 1, hn⟩) :
    a 19 (by decide) = ∑ t : Fin 20, g t := by
  have key : ∀ n (hn : n < 20),
      a n hn = ∑ i ∈ Finset.range (n + 1), (if h : i < 20 then g ⟨i, h⟩ else 0) := by
    intro n
    induction n with
    | zero =>
      intro hn
      rw [Finset.sum_range_one, dif_pos hn, h0, zero_add]
      rfl
    | succ n ih =>
      intro hn
      rw [hs n hn, ih (Nat.lt_of_succ_lt hn), Finset.sum_range_succ _ (n + 1), dif_pos hn]
  rw [key 19 (by decide), Finset.sum_range]
  exact Finset.sum_congr rfl fun t _ => dif_pos t.isLt

end Cert.Spec

end
-- ==== Proof.ValKernelIdeal.Blk.lean ====
import proofs.«125831_j1151051235416_1_alg».proof.Proof.BlockSum
import Idealize.ShloMosaic.Lib.Pipeline.Value

noncomputable section

namespace Idealize.ShloMosaic.Pipeline.Window

variable {sig : RefSig} {G : Grid} (w : Window sig G) (t : Fin G.N)

theorem rect_emb_eq (y : (w.xblock (G.coords t)).Idx) (x : w.shape.Idx)
    (h : ∀ a, (x a : ℕ) = w.index t a * w.size a + y a) : (w.rect t).emb y = x :=
  funext fun a => Fin.ext ((w.rect_emb_val t y a).trans (h a).symm)

theorem rect_emb_self (h : ∀ a, w.index t a = 0) (y : (w.xblock (G.coords t)).Idx) (x : w.shape.Idx)
    (hx : ∀ a, (x a : ℕ) = y a) : (w.rect t).emb y = x :=
  funext fun a => Fin.ext ((w.rect_emb_val_of_index_zero t a (h a) y).trans (hx a).symm)

-- the block's index set is the image of its rectangle
theorem emb_mem_blk (x : w.shape.Idx)
    (h : ∀ a, w.index t a * w.size a ≤ x a ∧ (x a : ℕ) < w.index t a * w.size a + w.xsize (G.coords t) a) :
    w.arr.view.emb x ∈ (w.blk t).view.set := by
  show _ ∈ (w.arr.view.slice (w.rect t)).set
  rw [View.set_slice]
  exact Finset.mem_map_of_mem _ (Rect.mem_set_unit.mpr h)

end Idealize.ShloMosaic.Pipeline.Window

namespace Cert.Spec

-- the twenty block sums regroup the sum over all rows
theorem acc_rows (a : (n : ℕ) → n < 20 → EReal) (Y : Fin 100000 → EReal)
    (h0 : a 0 (by decide) = 0 + ∑ r : Fin 5000, Y (blockRow 0 r))
    (hs : ∀ n (hn : n + 1 < 20), a (n + 1) hn = a n (Nat.lt_of_succ_lt hn) + ∑ r : Fin 5000, Y (blockRow ⟨n + 1, hn⟩ r)) :
    a 19 (by decide) = ∑ p, Y p :=
  (acc_last a (fun t => ∑ r, Y (blockRow t r)) h0 hs).trans (sum_blocks Y).symm

end Cert.Spec

end
-- ==== Proof.ValKernelIdeal.V1Pay.lean ====
import proofs.«125831_j1151051235416_1_alg».proof.Proof.Gen.KernelIdeal.Skeleton
import proofs.«125831_j1151051235416_1_alg».proof.Proof.Spec
import proofs.«125831_j1151051235416_1_alg».proof.Proof.ValKernelIdeal.Blk
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx
open Cert.KernelIdeal Cert.KernelIdeal.Gen Cert.Spec

theorem D1_lhs_0 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem D1_lhs_1 (j : S5000x128.Idx) (k : dot_S5000x128_S128x128_S5000x128_1_0_0_1_n_n.contr.Idx) :
    (dot_S5000x128_S128x128_S5000x128_1_0_0_1_n_n.lhsIdx j k 1 : ℕ) = k ⟨0, by decide⟩ :=
  DotDims.lhsIdx_val_of_single _ rfl j k
theorem D1_rhs_0 (j : S5000x128.Idx) (k : dot_S5000x128_S128x128_S5000x128_1_0_0_1_n_n.contr.Idx) :
    (dot_S5000x128_S128x128_S5000x128_1_0_0_1_n_n.rhsIdx j k 0 : ℕ) = k ⟨0, by decide⟩ :=
  DotDims.rhsIdx_val_of_single _ rfl j k
theorem D1_rhs_1 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

theorem matmul1_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply _ none l r (ix2 p q)).trans ?_
  rw [← Equiv.sum_comp (contrEquiv1 dot_S5000x128_S128x128_S5000x128_1_0_0_1_n_n 128 rfl rfl).symm]
  refine Finset.sum_congr rfl fun k _ => ?_
  refine congrArg₂ (· * ·) (congrArg l ?_) (congrArg r ?_)
  · apply Shape.idx_ext₂
    · exact D1_lhs_0 _ _
    · exact (D1_lhs_1 _ _).trans (contrEquiv1_symm_val _ 128 rfl rfl k)
  · apply Shape.idx_ext₂
    · exact (D1_rhs_0 _ _).trans (contrEquiv1_symm_val _ 128 rfl rfl k)
    · exact D1_rhs_1 _ _

theorem rowsum_apply (y : FVec Ideal S5000x128 .f32) (q : Fin 128) :
    multiReduction .add [0] S128 y 0x00000000#32 reduces_S5000x128_S128 (.inl rfl) rfl (ix1 q) = ∑ p : Fin 5000, y (ix2 p q) := by
  refine (Ideal.multiReduction_add_single y 0x00000000#32 reduces_S5000x128_S128 (.inl rfl) rfl (ix1 q)).trans ?_
  refine Finset.sum_congr rfl fun p _ => congrArg y ?_
  apply Shape.idx_ext₂ <;> rfl

theorem pay1_apply (y : FVec Ideal S5000x128 .f32) (a : Vec Ideal S1x128 .f32) (u : Fin 1) (q : Fin 128) :
    k1_pay1 y a (ix2 u q) = a (ix2 u q) + ∑ p : Fin 5000, y (ix2 p q) := by
  unfold k1_pay1
  simp only [shapeCast_self]
  refine (addf_apply _ _ _).trans ?_
  refine congrArg (a (ix2 u q) + ·) ?_
  refine (shapeCast_a_1a_apply _ shapeCasts_S128_S1x128 u q).trans ?_
  exact rowsum_apply y q

theorem pay3_apply (i : S1x128.Idx) : k1_pay3 (F := Ideal) i = 0 := by
  unfold k1_pay3
  simp only [shapeCast_self]
  exact Ideal.ofBits_zero_f32
theorem pay2_apply (x : Vec Ideal S5000x128 .f32) (s m g b : Vec Ideal S1x128 .f32) (p : Fin 5000) (q : Fin 128) :
    k2_pay1 (F := Ideal) x s m g b (ix2 p q)
      = max ((x (ix2 p q) - m (ix2 (0 : Fin 1) q)) * Ideal.rsqrt (s (ix2 (0 : Fin 1) q) + bnEps) * g (ix2 (0 : Fin 1) q)
          + b (ix2 (0 : Fin 1) q)) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg₂ max rfl Ideal.ofBits_zero_f32

-- the stored block is the normalised, rectified block times the weights, plus the bias
theorem pay5_apply (x : Vec Ideal S5000x128 .f32) (s m g t : Vec Ideal S1x128 .f32) (w : Vec Ideal S128x128 .f32)
    (b : Vec Ideal S1x128 .f32) (p : Fin 5000) (q : Fin 128) :
    k1_pay5 x s m g t w b (ix2 p q)
      = (∑ k : Fin 128, max ((x (ix2 p k) - m (ix2 0 k)) * Ideal.rsqrt (s (ix2 0 k) + bnEps) * g (ix2 0 k) + t (ix2 0 k)) 0
          * w (ix2 k q)) + b (ix2 0 q) := by
  refine (addf_apply _ _ _).trans (congrArg₂ (· + ·) ((matmul1_apply (k2_pay1 x s m g t) w p q).trans
    (Finset.sum_congr rfl fun k _ => congrArg (· * _) (pay2_apply x s m g t p k))) ?_)
  exact (broadcastTo_1b_ab_apply _ Gen.broadcasts_S1x128_S5000x128 p q).trans (congrFun (shapeCast_self b _) _)

-- each step adds one block's column sums, and the blocks are the rows of Y taken 5000 at a time
theorem acc_one_last (a : (n : ℕ) → n < 20 → Vec Ideal S1x128 .f32) (y : (n : ℕ) → n < 20 → FVec Ideal S5000x128 .f32) (Y : Mat)
    (hy : ∀ n hn p q, y n hn (ix2 p q) = Y (blockRow ⟨n, hn⟩ p) q)
    (h0 : a 0 (by decide) = k1_pay1 (y 0 (by decide)) (k1_pay3 (F := Ideal)))
    (hs : ∀ n (hn : n + 1 < 20), a (n + 1) hn = k1_pay1 (y (n + 1) hn) (a n (Nat.lt_of_succ_lt hn)))
    (u : Fin 1) (q : Fin 128) : a 19 (by decide) (ix2 u q) = colsum Y q := by
  refine acc_rows (fun n hn => a n hn (ix2 u q)) (fun p => Y p q) ?_ fun n hn => ?_
  · show a 0 _ (ix2 u q) = _
    rw [h0]
    exact (pay1_apply _ _ u q).trans (congrArg₂ (· + ·) (pay3_apply _) (Finset.sum_congr rfl fun p _ => hy 0 _ p q))
  · show a (n + 1) hn (ix2 u q) = _
    rw [hs n hn]
    exact (pay1_apply _ _ u q).trans (congrArg (_ + ·) (Finset.sum_congr rfl fun p _ => hy _ hn p q))

end Cert.KernelIdeal.Val

end
-- ==== Proof.ValKernelIdeal.V0.lean ====
import proofs.«125831_j1151051235416_1_alg».proof.Proof.FrameKernelIdeal.R0
import proofs.«125831_j1151051235416_1_alg».proof.Proof.Spec
import proofs.«125831_j1151051235416_1_alg».proof.Proof.ValKernelIdeal.V1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀ Cert.KernelIdeal.Facts Cert.KernelIdeal.Gen Cert.KernelIdeal.Hand Cert.Spec

variable (V : (c : Dev nD) → (b : Ref sig .tc) → Buf (Elt Ideal) ((c : Thread nD τ).loc b))

def Y1of (c : Dev nD) : Mat :=
  lin (mix (toMat (V c main_v12)) (toMat (V c main_arg0)) (toRow1 (V c main_v13))) (toWt (V c main_arg3)) (toRow1 (V c main_v14))

namespace Affine1

-- a matrix product's entry is the sum over the inner index, and a row repeated down a block reads its one row
theorem pay4_ix (xa : Vec Ideal S5000x128 .f32) (xe : Vec Ideal S1x128 .f32) (xv : Vec Ideal S5000x128 .f32)
    (xw : Vec Ideal S128x128 .f32) (xb : Vec Ideal S1x128 .f32) (p : Fin 5000) (q : Fin 128) :
    k0_pay4 xa xe xv xw xb (ix2 p q)
      = (∑ k : Fin 128, (xa (ix2 p k) + xe (ix2 (0 : Fin 1) k) * xv (ix2 p k)) * xw (ix2 k q)) + xb (ix2 (0 : Fin 1) q) := by
  unfold k0_pay4
  simp only [shapeCast_self]
  refine (addf_apply _ _ _).trans (congrArg₂ (· + ·) ?_ (broadcastTo_1b_ab_apply xb _ p q))
  refine (matmul1_apply _ _ p q).trans (Finset.sum_congr rfl fun k _ => congrArg₂ (· * ·) ?_ rfl)
  exact (addf_apply _ _ _).trans (congrArg₂ (· + ·) rfl
    ((mulf_apply _ _ _).trans (congrArg₂ (· * ·) (broadcastTo_1b_ab_apply xe _ p k) rfl)))

theorem idx0 : ∀ t : Fin cfg0.N,
    (win0_0.index t 0 = t.val ∧ win0_0.index t 1 = 0) ∧ (win0_1.index t 0 = t.val ∧ win0_1.index t 1 = 0)
    ∧ (win0_5.index t 0 = t.val ∧ win0_5.index t 1 = 0)
    ∧ (∀ a, win0_2.index t a = 0) ∧ (∀ a, win0_3.index t a = 0) ∧ (∀ a, win0_4.index t a = 0)
    ∧ (∀ a, win0_6.index t a = 0) ∧ (∀ a, win0_7.index t a = 0) :=
  (by decide +kernel : ∀ t : Fin grid0.N, _)

-- each block read is the array's entry at the block's place, so the two sums agree term by term
theorem hp0_apply (c : Dev nD) (t : Fin cfg0.N) (p : Fin 5000) (q : Fin 128) (r : Fin 100000) (hr : r.val = 5000 * t.val + p.val) :
    hp0 V c t (ix2 p q) = Y1of V c r q := by
  obtain ⟨⟨a0, a1⟩, ⟨v0, v1⟩, -, h2, h3, h4, -⟩ := idx0 t
  have hA : ∀ k, xa0 V c t (ix2 p k) = V c main_v12 (ix2 r k) := fun k => congrArg (V c main_v12)
    (win0_0.rect_emb_eq t (ix2 p k) (ix2 r k) (Fin.forall_fin_two.2
      ⟨by show r.val = win0_0.index t 0 * 5000 + p.val; omega, by show k.val = win0_0.index t 1 * 128 + k.val; omega⟩))
  have hV : ∀ k, xv0 V c t (ix2 p k) = V c main_arg0 (ix2 r k) := fun k => congrArg (V c main_arg0)
    (win0_1.rect_emb_eq t (ix2 p k) (ix2 r k) (Fin.forall_fin_two.2
      ⟨by show r.val = win0_1.index t 0 * 5000 + p.val; omega, by show k.val = win0_1.index t 1 * 128 + k.val; omega⟩))
  have hE : xe0 V c t = V c main_v13 := funext fun j => congrArg (V c main_v13) (win0_2.rect_emb_self t h2 j j fun _ => rfl)
  have hW : xw0 V c t = V c main_arg3 := funext fun j => congrArg (V c main_arg3) (win0_3.rect_emb_self t h3 j j fun _ => rfl)
  have hB : xb0 V c t = V c main_v14 := funext fun j => congrArg (V c main_v14) (win0_4.rect_emb_self t h4 j j fun _ => rfl)
  unfold hp0 Y1of lin
  rw [pay4_ix, hE, hW, hB]
  exact congrArg (· + _) (Finset.sum_congr rfl fun k _ => by rw [hA k, hV k]; rfl)

theorem read_blk5 (G : S100000x128.Idx → EReal) (t : Fin cfg0.N) (p : Fin 5000) (q : Fin 128) (r : Fin 100000)
    (hr : r.val = 5000 * t.val + p.val) :
    (((cfg0.win 5).blk t).view.read (Elt Ideal) G : S5000x128.Idx → EReal) (ix2 p q) = G (ix2 r q) := by
  obtain ⟨-, -, ⟨e0, e1⟩, -⟩ := idx0 t
  exact congrArg G (win0_5.rect_emb_eq t (ix2 p q) (ix2 r q) (Fin.forall_fin_two.2
      ⟨by show r.val = win0_5.index t 0 * 5000 + p.val; omega, by show q.val = win0_5.index t 1 * 128 + q.val; omega⟩))

theorem read_blk6 (G : S1x128.Idx → EReal) (t : Fin cfg0.N) :
    (((cfg0.win 6).blk t).view.read (Elt Ideal) G : S1x128.Idx → EReal) = G :=
  funext fun j => congrArg G (win0_6.rect_emb_self t (idx0 t).2.2.2.2.2.2.1 j j fun _ => rfl)

theorem read_blk7 (G : S1x128.Idx → EReal) (t : Fin cfg0.N) :
    (((cfg0.win 7).blk t).view.read (Elt Ideal) G : S1x128.Idx → EReal) = G :=
  funext fun j => congrArg G (win0_7.rect_emb_self t (idx0 t).2.2.2.2.2.2.2 j j fun _ => rfl)

theorem pt_lt (t : Fin cfg0.N) : t.val < 20 := lt_of_lt_of_eq t.isLt N_0

theorem flushed5_eq (c : Dev nD) (t : Fin cfg0.N) :
    (dat0 V c).flushed 5 t = ((cfg0.win 5).blk t).view.read (Elt Ideal) (ofMat (Y1of V c)) := by
  show (cfg0.win 5).cut (grid0.coords t) ((dat0 V c).after 5 t) = _
  rw [after0_5]
  funext j
  obtain ⟨p, q, rfl⟩ : ∃ (p : Fin 5000) (q : Fin 128), j = ix2 p q := ⟨j 0, j 1, eq_ix2 j⟩
  have hp := p.isLt
  have ht := pt_lt t
  show hp0 V c t (ix2 p q) = (((cfg0.win 5).blk t).view.read (Elt Ideal) (ofMat (Y1of V c)) : S5000x128.Idx → EReal) (ix2 p q)
  rw [hp0_apply V c t p q ⟨5000 * t.val + p.val, by omega⟩ rfl, read_blk5 _ t p q ⟨5000 * t.val + p.val, by omega⟩ rfl]
  rfl

-- row r lies in the block of point r / 5000
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := lt_of_lt_of_eq (by omega : (i 0).val / 5000 < 20) N_0.symm
  obtain ⟨-, -, ⟨e0, e1⟩, -⟩ := idx0 ⟨_, ht⟩
  exact ⟨⟨_, ht⟩, flush0_5 _, win0_5.emb_mem_blk _ i (Fin.forall_fin_two.2
    ⟨by show win0_5.index _ 0 * 5000 ≤ (i 0).val ∧ (i 0).val < win0_5.index _ 0 * 5000 + 5000; rw [e0]; show (i 0).val / 5000 * 5000 ≤ _ ∧ _ < (i 0).val / 5000 * 5000 + 5000; omega,
     by show win0_5.index _ 1 * 128 ≤ (i 1).val ∧ (i 1).val < win0_5.index _ 1 * 128 + 128; omega⟩)⟩

-- both accumulators follow the one recursion, on the blocks and on their squares
theorem acc0_last (c : Dev nD) (t : Fin cfg0.N) (h : t.val % 20 = 19) (u : Fin 1) (q : Fin 128) :
    (acc0 V c t.val t.isLt).1 (ix2 u q) = colsum (Y1of V c) q ∧ (acc0 V c t.val t.isLt).2 (ix2 u q) = colsum (sq (Y1of V c)) q := by
  have h19 : t.val = 19 := by have := pt_lt t; omega
  obtain ⟨n, hn⟩ := t
  obtain rfl : n = 19 := h19
  exact ⟨acc_one_last (fun n hn => (acc0 V c n (lt_of_lt_of_eq hn N_0.symm)).1) (fun n hn => hp0 V c ⟨n, lt_of_lt_of_eq hn N_0.symm⟩)
      (Y1of V c) (fun n hn p q => hp0_apply V c _ p q _ rfl) rfl (fun n hn => rfl) u q,
    acc_one_last (fun n hn => (acc0 V c n (lt_of_lt_of_eq hn N_0.symm)).2)
      (fun n hn => mulf (hp0 V c ⟨n, lt_of_lt_of_eq hn N_0.symm⟩) (hp0 V c ⟨n, lt_of_lt_of_eq hn N_0.symm⟩))
      (sq (Y1of V c)) (fun n hn p q => congrArg₂ (· * ·) (hp0_apply V c _ p q _ rfl) (hp0_apply V c _ p q _ rfl)) rfl (fun n hn => rfl) u q⟩

theorem flushed6_eq (c : Dev nD) (t : Fin cfg0.N) (hf : (cfg0.win 6).flush t = true) :
    (dat0 V c).flushed 6 t = ((cfg0.win 6).blk t).view.read (Elt Ideal) (ofRow1 (colsum (Y1of V c))) := by
  show (cfg0.win 6).cut (grid0.coords t) ((dat0 V c).after 6 t) = _
  rw [after0_6, read_blk6]
  funext j
  obtain ⟨u, q, rfl⟩ : ∃ (u : Fin 1) (q : Fin 128), j = ix2 u q := ⟨j 0, j 1, eq_ix2 j⟩
  exact (acc0_last V c t ((flush0_6 t).mp hf) u q).1

theorem flushed7_eq (c : Dev nD) (t : Fin cfg0.N) (hf : (cfg0.win 7).flush t = true) :
    (dat0 V c).flushed 7 t = ((cfg0.win 7).blk t).view.read (Elt Ideal) (ofRow1 (colsum (sq (Y1of V c)))) := by
  show (cfg0.win 7).cut (grid0.coords t) ((dat0 V c).after 7 t) = _
  rw [after0_7, read_blk7]
  funext j
  obtain ⟨u, q, rfl⟩ : ∃ (u : Fin 1) (q : Fin 128), j = ix2 u q := ⟨j 0, j 1, eq_ix2 j⟩
  exact (acc0_last V c t ((flush0_7 t).mp hf) u q).2

def tLast : Fin cfg0.N := ⟨19, lt_of_lt_of_eq (by decide : 19 < 20) N_0.symm⟩

-- the last point's block is the whole one-row array
theorem cover6 (i : S1x128.Idx) : ∃ t : Fin cfg0.N, (cfg0.win 6).flush t = true ∧ i ∈ ((cfg0.win 6).blk t).view.set :=
  ⟨tLast, (flush0_6 tLast).mpr rfl, win0_6.emb_mem_blk tLast i fun a => by
    rw [(idx0 tLast).2.2.2.2.2.2.1 a, Nat.zero_mul, Nat.zero_add]; exact ⟨Nat.zero_le _, (i a).isLt⟩⟩

theorem cover7 (i : S1x128.Idx) : ∃ t : Fin cfg0.N, (cfg0.win 7).flush t = true ∧ i ∈ ((cfg0.win 7).blk t).view.set :=
  ⟨tLast, (flush0_7 tLast).mpr rfl, win0_7.emb_mem_blk tLast i fun a => by
    rw [(idx0 tLast).2.2.2.2.2.2.2 a, Nat.zero_mul, Nat.zero_add]; exact ⟨Nat.zero_le _, (i a).isLt⟩⟩

end Affine1

theorem val0_5 (c : Dev nD) : ((dat0 V c).arrAt 5 cfg0.N : S100000x128.Idx → EReal) = ofMat (Y1of V c) :=
  (dat0 V c).arrAt_eq_of_cover 5 (ofMat (Y1of V c)) (fun t _ => Affine1.flushed5_eq V c t) Affine1.cover5

theorem val0_6 (c : Dev nD) : ((dat0 V c).arrAt 6 cfg0.N : S1x128.Idx → EReal) = ofRow1 (colsum (Y1of V c)) :=
  (dat0 V c).arrAt_eq_of_cover 6 (ofRow1 (colsum (Y1of V c))) (fun t hf => Affine1.flushed6_eq V c t hf) Affine1.cover6

theorem val0_7 (c : Dev nD) : ((dat0 V c).arrAt 7 cfg0.N : S1x128.Idx → EReal) = ofRow1 (colsum (sq (Y1of V c))) :=
  (dat0 V c).arrAt_eq_of_cover 7 (ofRow1 (colsum (sq (Y1of V c)))) (fun t hf => Affine1.flushed7_eq V c t hf) Affine1.cover7

end Cert.KernelIdeal.Val

end
-- ==== Proof.ValKernelIdeal.V1Blk.lean ====
import proofs.«125831_j1151051235416_1_alg».proof.Proof.FrameKernelIdeal.R1
import proofs.«125831_j1151051235416_1_alg».proof.Proof.Spec
import proofs.«125831_j1151051235416_1_alg».proof.Proof.ValKernelIdeal.V1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

def Y2of (c : Dev nD) : Mat :=
  lin (bnrelu (toMat (V c main_v20_0)) (toRow1 (V c main_v22)) (toRow1 (V c main_v26)) (toRow1 (V c main_v15)) (toRow1 (V c main_v16)))
    (toWt (V c main_arg7)) (toRow1 (V c main_v17))

theorem idx1 : ∀ t : Fin cfg1.N,
    (win1_0.index t 0 = t.val ∧ win1_0.index t 1 = 0) ∧ (win1_7.index t 0 = t.val ∧ win1_7.index t 1 = 0)
    ∧ (∀ a, win1_1.index t a = 0) ∧ (∀ a, win1_2.index t a = 0) ∧ (∀ a, win1_3.index t a = 0) ∧ (∀ a, win1_4.index t a = 0)
    ∧ (∀ a, win1_5.index t a = 0) ∧ (∀ a, win1_6.index t a = 0) ∧ (∀ a, win1_8.index t a = 0) ∧ (∀ a, win1_9.index t a = 0) :=
  (by decide +kernel : ∀ t : Fin grid1.N, _)

-- each block read is the array's entry at the block's place, so the two sums agree term by term
theorem hp1_apply (c : Dev nD) (t : Fin cfg1.N) (p : Fin 5000) (q : Fin 128) (r : Fin 100000) (hr : r.val = 5000 * t.val + p.val) :
    hp1 V c t (ix2 p q) = Y2of V c r q := by
  obtain ⟨⟨e0, e1⟩, -, h1, h2, h3, h4, h5, h6, -⟩ := idx1 t
  have hh : ∀ k, xh1 V c t (ix2 p k) = V c main_v20_0 (ix2 r k) := fun k => congrArg (V c main_v20_0)
    (win1_0.rect_emb_eq t (ix2 p k) (ix2 r k) (Fin.forall_fin_two.2
      ⟨by show r.val = win1_0.index t 0 * 5000 + p.val; omega, by show k.val = win1_0.index t 1 * 128 + k.val; omega⟩))
  have hm : xm1 V c t = V c main_v22 := funext fun j => congrArg (V c main_v22) (win1_1.rect_emb_self t h1 j j fun _ => rfl)
  have hs : xs1 V c t = V c main_v26 := funext fun j => congrArg (V c main_v26) (win1_2.rect_emb_self t h2 j j fun _ => rfl)
  have hg : xg1 V c t = V c main_v15 := funext fun j => congrArg (V c main_v15) (win1_3.rect_emb_self t h3 j j fun _ => rfl)
  have ht : xt1 V c t = V c main_v16 := funext fun j => congrArg (V c main_v16) (win1_4.rect_emb_self t h4 j j fun _ => rfl)
  have hw : xw1 V c t = V c main_arg7 := funext fun j => congrArg (V c main_arg7) (win1_5.rect_emb_self t h5 j j fun _ => rfl)
  have hb : xb1 V c t = V c main_v17 := funext fun j => congrArg (V c main_v17) (win1_6.rect_emb_self t h6 j j fun _ => rfl)
  unfold hp1 Y2of lin
  rw [pay5_apply, hm, hs, hg, ht, hw, hb]
  exact congrArg (· + _) (Finset.sum_congr rfl fun k _ => by rw [hh k]; rfl)

theorem read_blk7 (G : S100000x128.Idx → EReal) (t : Fin cfg1.N) (p : Fin 5000) (q : Fin 128) (r : Fin 100000)
    (hr : r.val = 5000 * t.val + p.val) :
    (((cfg1.win 7).blk t).view.read (Elt Ideal) G : S5000x128.Idx → EReal) (ix2 p q) = G (ix2 r q) := by
  obtain ⟨-, ⟨e0, e1⟩, -⟩ := idx1 t
  exact congrArg G (win1_7.rect_emb_eq t (ix2 p q) (ix2 r q) (Fin.forall_fin_two.2
      ⟨by show r.val = win1_7.index t 0 * 5000 + p.val; omega, by show q.val = win1_7.index t 1 * 128 + q.val; omega⟩))

theorem read_blk8 (G : S1x128.Idx → EReal) (t : Fin cfg1.N) :
    (((cfg1.win 8).blk t).view.read (Elt Ideal) G : S1x128.Idx → EReal) = G :=
  funext fun j => congrArg G (win1_8.rect_emb_self t (idx1 t).2.2.2.2.2.2.2.2.1 j j fun _ => rfl)

theorem read_blk9 (G : S1x128.Idx → EReal) (t : Fin cfg1.N) :
    (((cfg1.win 9).blk t).view.read (Elt Ideal) G : S1x128.Idx → EReal) = G :=
  funext fun j => congrArg G (win1_9.rect_emb_self t (idx1 t).2.2.2.2.2.2.2.2.2 j j fun _ => rfl)

end Cert.KernelIdeal.Val

end
-- ==== Proof.ValKernelIdeal.V1.lean ====
import proofs.«125831_j1151051235416_1_alg».proof.Proof.FrameKernelIdeal.R1
import proofs.«125831_j1151051235416_1_alg».proof.Proof.Spec
import proofs.«125831_j1151051235416_1_alg».proof.Proof.ValKernelIdeal.V1Pay
import proofs.«125831_j1151051235416_1_alg».proof.Proof.ValKernelIdeal.V1Blk
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀ Cert.KernelIdeal.Facts Cert.KernelIdeal.Gen Cert.KernelIdeal.Hand Cert.Spec

variable (V : (c : Dev nD) → (b : Ref sig .tc) → Buf (Elt Ideal) ((c : Thread nD τ).loc b))

theorem pt_lt (t : Fin cfg1.N) : t.val < 20 := lt_of_lt_of_eq t.isLt N_1

theorem flushed7_eq (c : Dev nD) (t : Fin cfg1.N) :
    (dat1 V c).flushed 7 t = ((cfg1.win 7).blk t).view.read (Elt Ideal) (ofMat (Y2of V c)) := by
  show (cfg1.win 7).cut (grid1.coords t) ((dat1 V c).after 7 t) = _
  rw [after1_7]
  funext j
  obtain ⟨p, q, rfl⟩ : ∃ (p : Fin 5000) (q : Fin 128), j = ix2 p q := ⟨j 0, j 1, eq_ix2 j⟩
  have hp := p.isLt
  have ht := pt_lt t
  show hp1 V c t (ix2 p q) = (((cfg1.win 7).blk t).view.read (Elt Ideal) (ofMat (Y2of V c)) : S5000x128.Idx → EReal) (ix2 p q)
  rw [hp1_apply V c t p q ⟨5000 * t.val + p.val, by omega⟩ rfl, read_blk7 _ t p q ⟨5000 * t.val + p.val, by omega⟩ rfl]
  rfl

-- row r lies in the block of point r / 5000
theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  obtain ⟨-, ⟨e0, e1⟩, -⟩ := idx1 ⟨_, ht⟩
  exact ⟨⟨_, ht⟩, flush1_7 _, win1_7.emb_mem_blk _ i (Fin.forall_fin_two.2
    ⟨by show win1_7.index _ 0 * 5000 ≤ (i 0).val ∧ (i 0).val < win1_7.index _ 0 * 5000 + 5000; rw [e0]; show (i 0).val / 5000 * 5000 ≤ _ ∧ _ < (i 0).val / 5000 * 5000 + 5000; omega,
     by show win1_7.index _ 1 * 128 ≤ (i 1).val ∧ (i 1).val < win1_7.index _ 1 * 128 + 128; omega⟩)⟩

theorem val1_7 (c : Dev nD) : ((dat1 V c).arrAt 7 cfg1.N : S100000x128.Idx → EReal) = ofMat (Y2of V c) :=
  (dat1 V c).arrAt_eq_of_cover 7 (ofMat (Y2of V c)) (fun t _ => flushed7_eq V c t) cover7

-- both accumulators follow the one recursion, on the blocks and on their squares
theorem acc1_last (c : Dev nD) (t : Fin cfg1.N) (h : t.val % 20 = 19) (u : Fin 1) (q : Fin 128) :
    (acc1 V c t.val t.isLt).1 (ix2 u q) = colsum (Y2of V c) q ∧ (acc1 V c t.val t.isLt).2 (ix2 u q) = colsum (sq (Y2of V c)) q := by
  have h19 : t.val = 19 := by have := pt_lt t; omega
  obtain ⟨n, hn⟩ := t
  obtain rfl : n = 19 := h19
  exact ⟨acc_one_last (fun n hn => (acc1 V c n (lt_of_lt_of_eq hn N_1.symm)).1) (fun n hn => hp1 V c ⟨n, lt_of_lt_of_eq hn N_1.symm⟩)
      (Y2of V c) (fun n hn p q => hp1_apply V c _ p q _ rfl) rfl (fun n hn => rfl) u q,
    acc_one_last (fun n hn => (acc1 V c n (lt_of_lt_of_eq hn N_1.symm)).2)
      (fun n hn => mulf (hp1 V c ⟨n, lt_of_lt_of_eq hn N_1.symm⟩) (hp1 V c ⟨n, lt_of_lt_of_eq hn N_1.symm⟩))
      (sq (Y2of V c)) (fun n hn p q => congrArg₂ (· * ·) (hp1_apply V c _ p q _ rfl) (hp1_apply V c _ p q _ rfl)) rfl (fun n hn => rfl) u q⟩

theorem flushed8_eq (c : Dev nD) (t : Fin cfg1.N) (hf : (cfg1.win 8).flush t = true) :
    (dat1 V c).flushed 8 t = ((cfg1.win 8).blk t).view.read (Elt Ideal) (ofRow1 (colsum (Y2of V c))) := by
  show (cfg1.win 8).cut (grid1.coords t) ((dat1 V c).after 8 t) = _
  rw [after1_8, read_blk8]
  funext j
  obtain ⟨u, q, rfl⟩ : ∃ (u : Fin 1) (q : Fin 128), j = ix2 u q := ⟨j 0, j 1, eq_ix2 j⟩
  exact (acc1_last V c t ((flush1_8 t).mp hf) u q).1

theorem flushed9_eq (c : Dev nD) (t : Fin cfg1.N) (hf : (cfg1.win 9).flush t = true) :
    (dat1 V c).flushed 9 t = ((cfg1.win 9).blk t).view.read (Elt Ideal) (ofRow1 (colsum (sq (Y2of V c)))) := by
  show (cfg1.win 9).cut (grid1.coords t) ((dat1 V c).after 9 t) = _
  rw [after1_9, read_blk9]
  funext j
  obtain ⟨u, q, rfl⟩ : ∃ (u : Fin 1) (q : Fin 128), j = ix2 u q := ⟨j 0, j 1, eq_ix2 j⟩
  exact (acc1_last V c t ((flush1_9 t).mp hf) u q).2

def tLast : Fin cfg1.N := ⟨19, lt_of_lt_of_eq (by decide : 19 < 20) N_1.symm⟩

-- the last point's block is the whole one-row array
theorem cover8 (i : S1x128.Idx) : ∃ t : Fin cfg1.N, (cfg1.win 8).flush t = true ∧ i ∈ ((cfg1.win 8).blk t).view.set :=
  ⟨tLast, (flush1_8 tLast).mpr rfl, win1_8.emb_mem_blk tLast i fun a => by
    rw [(idx1 tLast).2.2.2.2.2.2.2.2.1 a, Nat.zero_mul, Nat.zero_add]; exact ⟨Nat.zero_le _, (i a).isLt⟩⟩

theorem cover9 (i : S1x128.Idx) : ∃ t : Fin cfg1.N, (cfg1.win 9).flush t = true ∧ i ∈ ((cfg1.win 9).blk t).view.set :=
  ⟨tLast, (flush1_9 tLast).mpr rfl, win1_9.emb_mem_blk tLast i fun a => by
    rw [(idx1 tLast).2.2.2.2.2.2.2.2.2 a, Nat.zero_mul, Nat.zero_add]; exact ⟨Nat.zero_le _, (i a).isLt⟩⟩

theorem val1_8 (c : Dev nD) : ((dat1 V c).arrAt 8 cfg1.N : S1x128.Idx → EReal) = ofRow1 (colsum (Y2of V c)) :=
  (dat1 V c).arrAt_eq_of_cover 8 (ofRow1 (colsum (Y2of V c))) (flushed8_eq V c) cover8

theorem val1_9 (c : Dev nD) : ((dat1 V c).arrAt 9 cfg1.N : S1x128.Idx → EReal) = ofRow1 (colsum (sq (Y2of V c))) :=
  (dat1 V c).arrAt_eq_of_cover 9 (ofRow1 (colsum (sq (Y2of V c)))) (flushed9_eq V c) cover9

end Cert.KernelIdeal.Val

end
-- ==== Proof.ValKernelIdeal.V2.lean ====
import proofs.«125831_j1151051235416_1_alg».proof.Proof.FrameKernelIdeal.R2
import proofs.«125831_j1151051235416_1_alg».proof.Proof.Spec
import proofs.«125831_j1151051235416_1_alg».proof.Proof.ValKernelIdeal.V1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀ Cert.KernelIdeal.Facts Cert.KernelIdeal.Gen Cert.KernelIdeal.Hand Cert.Spec

variable (V : (c : Dev nD) → (b : Ref sig .tc) → Buf (Elt Ideal) ((c : Thread nD τ).loc b))

theorem idx2 : ∀ t : Fin cfg2.N,
    (win2_0.index t 0 = t.val ∧ win2_0.index t 1 = 0) ∧ (win2_5.index t 0 = t.val ∧ win2_5.index t 1 = 0)
    ∧ (∀ a, win2_1.index t a = 0) ∧ (∀ a, win2_2.index t a = 0) ∧ (∀ a, win2_3.index t a = 0) ∧ (∀ a, win2_4.index t a = 0) :=
  (by decide +kernel : ∀ t : Fin grid2.N, _)

abbrev G2 (c : Dev nD) : S100000x128.Idx → EReal :=
  ofMat (bnrelu (toMat (V c main_v27_0)) (toRow1 (V c main_v29)) (toRow1 (V c main_v33)) (toRow1 (V c main_v18)) (toRow1 (V c main_v19)))

-- each block read is the array's entry at the block's place
theorem hp2_apply (c : Dev nD) (t : Fin cfg2.N) (p : Fin 5000) (q : Fin 128) (P : Fin 100000)
    (hP : P.val = 5000 * t.val + p.val) : hp2 V c t (ix2 p q) = G2 V c (ix2 P q) := by
  obtain ⟨⟨e0, e1⟩, -, h1, h2, h3, h4⟩ := idx2 t
  have hh : xh2 V c t (ix2 p q) = V c main_v27_0 (ix2 P q) :=
    congrArg (V c main_v27_0) (win2_0.rect_emb_eq t (ix2 p q) (ix2 P q) (Fin.forall_fin_two.2
      ⟨by show P.val = win2_0.index t 0 * 5000 + p.val; omega, by show q.val = win2_0.index t 1 * 128 + q.val; omega⟩))
  have hm : xm2 V c t = V c main_v29 := funext fun j => congrArg (V c main_v29) (win2_1.rect_emb_self t h1 j j fun _ => rfl)
  have hs : xs2 V c t = V c main_v33 := funext fun j => congrArg (V c main_v33) (win2_2.rect_emb_self t h2 j j fun _ => rfl)
  have hg : xg2 V c t = V c main_v18 := funext fun j => congrArg (V c main_v18) (win2_3.rect_emb_self t h3 j j fun _ => rfl)
  have ht : xt2 V c t = V c main_v19 := funext fun j => congrArg (V c main_v19) (win2_4.rect_emb_self t h4 j j fun _ => rfl)
  unfold hp2
  rw [pay2_apply, hh, hm, hs, hg, ht]
  rfl

theorem flushed2_5_eq (c : Dev nD) (t : Fin cfg2.N) :
    (dat2 V c).flushed 5 t = ((cfg2.win 5).blk t).view.read (Elt Ideal) (G2 V c) := by
  obtain ⟨-, ⟨e0, e1⟩, -⟩ := idx2 t
  show (cfg2.win 5).cut (grid2.coords t) ((dat2 V c).after 5 t) = _
  rw [after2_5]
  funext j
  obtain ⟨p, q, rfl⟩ : ∃ (p : Fin 5000) (q : Fin 128), j = ix2 p q := ⟨j 0, j 1, eq_ix2 j⟩
  have hp := p.isLt
  have hN : t.val < 20 := t.isLt
  exact (hp2_apply V c t p q ⟨5000 * t.val + p.val, by omega⟩ rfl).trans (congrArg (G2 V c)
    (win2_5.rect_emb_eq t (ix2 p q) _ (Fin.forall_fin_two.2
      ⟨by show 5000 * t.val + p.val = win2_5.index t 0 * 5000 + p.val; omega, by show q.val = win2_5.index t 1 * 128 + q.val; omega⟩)).symm)

-- row r lies in the block of point r / 5000
theorem cover2_5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 5000 < cfg2.N := lt_of_lt_of_eq (by omega : (i 0).val / 5000 < 20) N_2.symm
  obtain ⟨-, ⟨e0, e1⟩, -⟩ := idx2 ⟨_, ht⟩
  exact ⟨⟨_, ht⟩, flush2_5 _, win2_5.emb_mem_blk _ i (Fin.forall_fin_two.2
    ⟨by show win2_5.index _ 0 * 5000 ≤ (i 0).val ∧ (i 0).val < win2_5.index _ 0 * 5000 + 5000; rw [e0]; show (i 0).val / 5000 * 5000 ≤ _ ∧ _ < (i 0).val / 5000 * 5000 + 5000; omega,
     by show win2_5.index _ 1 * 128 ≤ (i 1).val ∧ (i 1).val < win2_5.index _ 1 * 128 + 128; omega⟩)⟩

theorem val2_5 (c : Dev nD) : ((dat2 V c).arrAt 5 cfg2.N : S100000x128.Idx → EReal)
    = ofMat (bnrelu (toMat (V c main_v27_0)) (toRow1 (V c main_v29)) (toRow1 (V c main_v33)) (toRow1 (V c main_v18)) (toRow1 (V c main_v19))) :=
  (dat2 V c).arrAt_eq_of_cover 5 (G2 V c) (fun t _ => flushed2_5_eq V c t) cover2_5

end Cert.KernelIdeal.Val

end
-- ==== Proof.ValKernelIdeal.Agg.lean ====
import proofs.«125831_j1151051235416_1_alg».proof.Proof.Gen.KernelIdeal
import Idealize.ShloMosaic.PureOps.Ideal

noncomputable section

namespace Cert.KernelIdeal.Val

open Idealize.ShloMosaic
open Cert.KernelIdeal Cert.KernelIdeal.Facts₀ Cert.KernelIdeal.Facts

def agg (v : S100000x128.Idx → EReal) (ew : S1600000.Idx → EReal) (src dst : IVec S1600000 32) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal)
      (Host.gather gather_S100000x128_S1600000x1_S1600000x128_1_0_n_n_0_1_1128 v
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

end Cert.KernelIdeal.Val

end
-- ==== Proof.ValKernelIdeal.ChainHost.lean ====
import proofs.«125831_j1151051235416_1_alg».proof.Proof.Gen.KernelIdeal.Regions
import proofs.«125831_j1151051235416_1_alg».proof.Proof.ValKernelIdeal.Agg
import proofs.«125831_j1151051235416_1_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Val

open Idealize.ShloMosaic Idealize.ShloMosaic.TcCoe Idealize.ShloMosaic.ValueIdx
open Idealize.SL Idealize.SL.Sem
open Cert.KernelIdeal Cert.KernelIdeal.Facts₀ Cert.KernelIdeal.Facts Cert.KernelIdeal.Gen Cert.Spec

variable (V : Valuation τ sig (Elt Ideal))

theorem host0_agg :
    (StableHlo.after (hostOps0 (F := Ideal)) V (Proc.devRef .tc main_v12) : S100000x128.Idx → EReal)
      = agg (V (Proc.devRef .tc main_arg0)) (V (Proc.devRef .tc main_arg1))
          (V (Proc.devRef .tc main_arg11)) (V (Proc.devRef .tc main_arg12)) := by
  unfold hostOps0
  after_results
  rfl

theorem host0_eps :
    toRow1 (StableHlo.after (hostOps0 (F := Ideal)) V (Proc.devRef .tc main_v13))
      = fun _ => (V (Proc.devRef .tc main_arg2) : S1x1.Idx → EReal) (ix2 0 0) := by
  unfold hostOps0
  after_results
  funext q
  exact broadcastInDim_apply _ _ _ (ix2 0 q) (ix2 0 0) (fun a => by match a with | ⟨0, _⟩ => rfl | ⟨1, _⟩ => rfl)

-- a vector and its one-row lay-out have the same row-major positions
theorem host0_rows :
    toRow1 (StableHlo.after (hostOps0 (F := Ideal)) V (Proc.devRef .tc main_v14)) = toRowV (V (Proc.devRef .tc main_arg4))
    ∧ toRow1 (StableHlo.after (hostOps0 (F := Ideal)) V (Proc.devRef .tc main_v15)) = toRowV (V (Proc.devRef .tc main_arg5))
    ∧ toRow1 (StableHlo.after (hostOps0 (F := Ideal)) V (Proc.devRef .tc main_v16)) = toRowV (V (Proc.devRef .tc main_arg6))
    ∧ toRow1 (StableHlo.after (hostOps0 (F := Ideal)) V (Proc.devRef .tc main_v17)) = toRowV (V (Proc.devRef .tc main_arg8))
    ∧ toRow1 (StableHlo.after (hostOps0 (F := Ideal)) V (Proc.devRef .tc main_v18)) = toRowV (V (Proc.devRef .tc main_arg9))
    ∧ toRow1 (StableHlo.after (hostOps0 (F := Ideal)) V (Proc.devRef .tc main_v19)) = toRowV (V (Proc.devRef .tc main_arg10)) := by
  refine ⟨?_, ?_, ?_, ?_, ?_, ?_⟩ <;>
    (unfold hostOps0; after_results; exact funext fun q => shapeCast_a_1a_apply _ _ 0 q)

private theorem nRows_row (j : S1x128.Idx) :
    broadcastInDim S1x128 ![] Gen.bcast_S_S1x128 (constant (F := Ideal) S_ .f32 0x47C35000#32) j = nRows :=
  (broadcastInDim_scalar_apply _ _ j).trans rfl

-- the row count repeated along a row reads the row count at every entry
private theorem mean_row (s1 : S1x128.Idx → EReal) (q : Fin 128) :
    Ideal.div (s1 (ix2 0 q)) (broadcastInDim S1x128 ![] Gen.bcast_S_S1x128 (constant (F := Ideal) S_ .f32 0x47C35000#32) (ix2 0 q)) = Ideal.div (toRow1 s1 q) nRows :=
  congrArg (Ideal.div (s1 (ix2 0 q))) (nRows_row (ix2 0 q))

private theorem var_row (s1 s2 : S1x128.Idx → EReal) (q : Fin 128) :
    Ideal.div (s2 (ix2 0 q)) (broadcastInDim S1x128 ![] Gen.bcast_S_S1x128 (constant (F := Ideal) S_ .f32 0x47C35000#32) (ix2 0 q))
        - Ideal.div (s1 (ix2 0 q)) (broadcastInDim S1x128 ![] Gen.bcast_S_S1x128 (constant (F := Ideal) S_ .f32 0x47C35000#32) (ix2 0 q)) * Ideal.div (s1 (ix2 0 q)) (broadcastInDim S1x128 ![] Gen.bcast_S_S1x128 (constant (F := Ideal) S_ .f32 0x47C35000#32) (ix2 0 q))
      = Ideal.div (toRow1 s2 q) nRows - Ideal.div (toRow1 s1 q) nRows * Ideal.div (toRow1 s1 q) nRows := by
  rw [nRows_row]; rfl

theorem host1_mean :
    toRow1 (StableHlo.after (hostOps1 (F := Ideal)) V (Proc.devRef .tc main_v22))
      = fun q => Ideal.div (toRow1 (V (Proc.devRef .tc main_v20_1)) q) nRows := by
  unfold hostOps1
  after_results
  funext q
  exact mean_row _ q

theorem host1_var :
    toRow1 (StableHlo.after (hostOps1 (F := Ideal)) V (Proc.devRef .tc main_v26))
      = fun q => Ideal.div (toRow1 (V (Proc.devRef .tc main_v20_2)) q) nRows
          - Ideal.div (toRow1 (V (Proc.devRef .tc main_v20_1)) q) nRows * Ideal.div (toRow1 (V (Proc.devRef .tc main_v20_1)) q) nRows := by
  unfold hostOps1
  after_results
  funext q
  exact var_row _ _ q

theorem host2_mean :
    toRow1 (StableHlo.after (hostOps2 (F := Ideal)) V (Proc.devRef .tc main_v29))
      = fun q => Ideal.div (toRow1 (V (Proc.devRef .tc main_v27_1)) q) nRows := by
  unfold hostOps2
  after_results
  funext q
  exact mean_row _ q

theorem host2_var :
    toRow1 (StableHlo.after (hostOps2 (F := Ideal)) V (Proc.devRef .tc main_v33))
      = fun q => Ideal.div (toRow1 (V (Proc.devRef .tc main_v27_2)) q) nRows
          - Ideal.div (toRow1 (V (Proc.devRef .tc main_v27_1)) q) nRows * Ideal.div (toRow1 (V (Proc.devRef .tc main_v27_1)) q) nRows := by
  unfold hostOps2
  after_results
  funext q
  exact var_row _ _ q

end Cert.KernelIdeal.Val

end
-- ==== Proof.ValKernelIdeal.Chain.lean ====
import proofs.«125831_j1151051235416_1_alg».proof.Proof.FrameKernelIdeal.Run
import proofs.«125831_j1151051235416_1_alg».proof.Proof.ValKernelIdeal.V0
import proofs.«125831_j1151051235416_1_alg».proof.Proof.ValKernelIdeal.V1
import proofs.«125831_j1151051235416_1_alg».proof.Proof.ValKernelIdeal.V2
import proofs.«125831_j1151051235416_1_alg».proof.Proof.ValKernelIdeal.Agg
import proofs.«125831_j1151051235416_1_alg».proof.Proof.ValKernelIdeal.ChainHost
import Idealize.ShloMosaic.Lib.StableHlo.Run

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀ Cert.KernelIdeal.Facts Cert.KernelIdeal.Gen Cert.KernelIdeal.Hand Cert.Spec

variable (m : (ℓ : Loc nD τ sig) → Buf (Elt Ideal) ℓ)

def kerOut (c : Dev nD) : S100000x128.Idx → EReal :=
  ofMat (netK
    (toMat (agg (m ((c.tc : Thread nD τ).loc main_arg0)) (m ((c.tc : Thread nD τ).loc main_arg1))
      (m ((c.tc : Thread nD τ).loc main_arg11)) (m ((c.tc : Thread nD τ).loc main_arg12))))
    (toMat (m ((c.tc : Thread nD τ).loc main_arg0)))
    (fun _ => (m ((c.tc : Thread nD τ).loc main_arg2) : S1x1.Idx → EReal) (ix2 0 0))
    (toWt (m ((c.tc : Thread nD τ).loc main_arg3))) (toRowV (m ((c.tc : Thread nD τ).loc main_arg4)))
    (toRowV (m ((c.tc : Thread nD τ).loc main_arg5))) (toRowV (m ((c.tc : Thread nD τ).loc main_arg6)))
    (toWt (m ((c.tc : Thread nD τ).loc main_arg7))) (toRowV (m ((c.tc : Thread nD τ).loc main_arg8)))
    (toRowV (m ((c.tc : Thread nD τ).loc main_arg9))) (toRowV (m ((c.tc : Thread nD τ).loc main_arg10))))

def netMixed (c : Dev nD) : Mat :=
  mix (toMat (agg (m ((c.tc : Thread nD τ).loc main_arg0)) (m ((c.tc : Thread nD τ).loc main_arg1))
      (m ((c.tc : Thread nD τ).loc main_arg11)) (m ((c.tc : Thread nD τ).loc main_arg12))))
    (toMat (m ((c.tc : Thread nD τ).loc main_arg0)))
    (fun _ => (m ((c.tc : Thread nD τ).loc main_arg2) : S1x1.Idx → EReal) (ix2 0 0))

def netY1 (c : Dev nD) : Mat :=
  lin (netMixed m c) (toWt (m ((c.tc : Thread nD τ).loc main_arg3))) (toRowV (m ((c.tc : Thread nD τ).loc main_arg4)))

def netH1 (c : Dev nD) : Mat :=
  bnrelu (netY1 m c) (mean (netY1 m c)) (varK (netY1 m c))
    (toRowV (m ((c.tc : Thread nD τ).loc main_arg5))) (toRowV (m ((c.tc : Thread nD τ).loc main_arg6)))

def netY2 (c : Dev nD) : Mat :=
  lin (netH1 m c) (toWt (m ((c.tc : Thread nD τ).loc main_arg7))) (toRowV (m ((c.tc : Thread nD τ).loc main_arg8)))

theorem kerOut_eq (c : Dev nD) : kerOut m c = ofMat (bnrelu (netY2 m c) (mean (netY2 m c)) (varK (netY2 m c))
    (toRowV (m ((c.tc : Thread nD τ).loc main_arg9))) (toRowV (m ((c.tc : Thread nD τ).loc main_arg10)))) := by
  unfold kerOut netK netY2 netH1 netY1 netMixed
  rfl

section Congr
variable (V : (c : Dev nD) → (b : Ref sig .tc) → Buf (Elt Ideal) ((c : Thread nD τ).loc b))

theorem Y1of_congr (c : Dev nD) (A v : Mat) (e : Row) (W : Wt) (b : Row)
    (hA : toMat (V c main_v12) = A) (hv : toMat (V c main_arg0) = v) (he : toRow1 (V c main_v13) = e)
    (hW : toWt (V c main_arg3) = W) (hb : toRow1 (V c main_v14) = b) : Y1of V c = lin (mix A v e) W b := by
  unfold Y1of; rw [hA, hv, he, hW, hb]

theorem Y2of_congr (c : Dev nD) (Y : Mat) (mu var g be : Row) (W : Wt) (b : Row)
    (hY : toMat (V c main_v20_0) = Y) (hmu : toRow1 (V c main_v22) = mu) (hvar : toRow1 (V c main_v26) = var)
    (hg : toRow1 (V c main_v15) = g) (hbe : toRow1 (V c main_v16) = be)
    (hW : toWt (V c main_arg7) = W) (hb : toRow1 (V c main_v17) = b) : Y2of V c = lin (bnrelu Y mu var g be) W b := by
  unfold Y2of; rw [hY, hmu, hvar, hg, hbe, hW, hb]

end Congr

theorem mean_of_sums (Y : Mat) : (fun q => Ideal.div (toRow1 (ofRow1 (colsum Y)) q) nRows) = mean Y := rfl

theorem varK_of_sums (Y : Mat) : (fun q => Ideal.div (toRow1 (ofRow1 (colsum (sq Y))) q) nRows
    - Ideal.div (toRow1 (ofRow1 (colsum Y)) q) nRows * Ideal.div (toRow1 (ofRow1 (colsum Y)) q) nRows) = varK Y := rfl

theorem W1_kept (c : Dev nD) (b : Ref sig .tc) (h0 : b ∉ hostOps0_W) :
    W1 (F := Ideal) m c (Proc.devRef .tc b) = m ((c.tc : Thread nD τ).loc b) :=
  (StableHlo.after_of_writes_sub hostOps0 _ hostOps0_writes h0).trans rfl

theorem W3_kept (c : Dev nD) (b : Ref sig .tc) (h1 : b ∉ hostOps1_W)
    (ha : b ∉ ([main_v20_0, main_v20_1, main_v20_2] : List (Ref sig .tc))) :
    W3 (F := Ideal) m c (Proc.devRef .tc b) = W1 m c (Proc.devRef .tc b) :=
  (StableHlo.after_of_writes_sub hostOps1 _ hostOps1_writes h1).trans (W2_keep m c b ha)

theorem W5_kept (c : Dev nD) (b : Ref sig .tc) (h2 : b ∉ hostOps2_W)
    (hb : b ∉ ([main_v27_0, main_v27_1, main_v27_2] : List (Ref sig .tc))) :
    W5 (F := Ideal) m c (Proc.devRef .tc b) = W3 m c (Proc.devRef .tc b) :=
  (StableHlo.after_of_writes_sub hostOps2 _ hostOps2_writes h2).trans (W4_keep m c b hb)

theorem Y1of_eq (c : Dev nD) : Y1of (U1 m) c = netY1 m c :=
  Y1of_congr (U1 m) c _ _ _ _ _
    (congrArg toMat (host0_agg (W0 m c)))
    (congrArg toMat (W1_kept m c main_arg0 (by decide)))
    (host0_eps (W0 m c))
    (congrArg toWt (W1_kept m c main_arg3 (by decide)))
    (host0_rows (W0 m c)).1

theorem W2_y (c : Dev nD) : (W2 (F := Ideal) m c (Proc.devRef .tc main_v20_0) : S100000x128.Idx → EReal) = ofMat (netY1 m c) :=
  (W2_arr m c 5).trans ((val0_5 (U1 m) c).trans (congrArg ofMat (Y1of_eq m c)))
theorem W2_s1 (c : Dev nD) : (W2 (F := Ideal) m c (Proc.devRef .tc main_v20_1) : S1x128.Idx → EReal) = ofRow1 (colsum (netY1 m c)) :=
  (W2_arr m c 6).trans ((val0_6 (U1 m) c).trans (congrArg (fun Y => ofRow1 (colsum Y)) (Y1of_eq m c)))
theorem W2_s2 (c : Dev nD) : (W2 (F := Ideal) m c (Proc.devRef .tc main_v20_2) : S1x128.Idx → EReal) = ofRow1 (colsum (sq (netY1 m c))) :=
  (W2_arr m c 7).trans ((val0_7 (U1 m) c).trans (congrArg (fun Y => ofRow1 (colsum (sq Y))) (Y1of_eq m c)))

theorem W3_same (c : Dev nD) (b : Ref sig .tc) (h1 : b ∉ hostOps1_W) :
    W3 (F := Ideal) m c (Proc.devRef .tc b) = W2 m c (Proc.devRef .tc b) :=
  StableHlo.after_of_writes_sub hostOps1 _ hostOps1_writes h1

theorem W3_mean (c : Dev nD) : toRow1 (W3 (F := Ideal) m c (Proc.devRef .tc main_v22)) = mean (netY1 m c) := by
  refine (host1_mean (W2 m c)).trans ?_
  rw [W2_s1 m c]
  exact mean_of_sums _

theorem W3_var (c : Dev nD) : toRow1 (W3 (F := Ideal) m c (Proc.devRef .tc main_v26)) = varK (netY1 m c) := by
  refine (host1_var (W2 m c)).trans ?_
  rw [W2_s1 m c, W2_s2 m c]
  exact varK_of_sums _

theorem Y2of_eq (c : Dev nD) : Y2of (U3 m) c = netY2 m c :=
  Y2of_congr (U3 m) c _ _ _ _ _ _ _
    ((congrArg toMat ((W3_same m c main_v20_0 (by decide)).trans (W2_y m c))).trans (toMat_ofMat _))
    (W3_mean m c)
    (W3_var m c)
    ((congrArg toRow1 (W3_kept m c main_v15 (by decide) (by decide))).trans (host0_rows (W0 m c)).2.1)
    ((congrArg toRow1 (W3_kept m c main_v16 (by decide) (by decide))).trans (host0_rows (W0 m c)).2.2.1)
    (congrArg toWt ((W3_kept m c main_arg7 (by decide) (by decide)).trans (W1_kept m c main_arg7 (by decide))))
    ((congrArg toRow1 (W3_kept m c main_v17 (by decide) (by decide))).trans (host0_rows (W0 m c)).2.2.2.1)

theorem W4_y (c : Dev nD) : (W4 (F := Ideal) m c (Proc.devRef .tc main_v27_0) : S100000x128.Idx → EReal) = ofMat (netY2 m c) :=
  (W4_arr m c 7).trans ((val1_7 (U3 m) c).trans (congrArg ofMat (Y2of_eq m c)))
theorem W4_s1 (c : Dev nD) : (W4 (F := Ideal) m c (Proc.devRef .tc main_v27_1) : S1x128.Idx → EReal) = ofRow1 (colsum (netY2 m c)) :=
  (W4_arr m c 8).trans ((val1_8 (U3 m) c).trans (congrArg (fun Y => ofRow1 (colsum Y)) (Y2of_eq m c)))
theorem W4_s2 (c : Dev nD) : (W4 (F := Ideal) m c (Proc.devRef .tc main_v27_2) : S1x128.Idx → EReal) = ofRow1 (colsum (sq (netY2 m c))) :=
  (W4_arr m c 9).trans ((val1_9 (U3 m) c).trans (congrArg (fun Y => ofRow1 (colsum (sq Y))) (Y2of_eq m c)))

theorem W5_same (c : Dev nD) (b : Ref sig .tc) (h2 : b ∉ hostOps2_W) :
    W5 (F := Ideal) m c (Proc.devRef .tc b) = W4 m c (Proc.devRef .tc b) :=
  StableHlo.after_of_writes_sub hostOps2 _ hostOps2_writes h2

theorem W5_mean (c : Dev nD) : toRow1 (W5 (F := Ideal) m c (Proc.devRef .tc main_v29)) = mean (netY2 m c) := by
  refine (host2_mean (W4 m c)).trans ?_
  rw [W4_s1 m c]
  exact mean_of_sums _

theorem W5_var (c : Dev nD) : toRow1 (W5 (F := Ideal) m c (Proc.devRef .tc main_v33)) = varK (netY2 m c) := by
  refine (host2_var (W4 m c)).trans ?_
  rw [W4_s1 m c, W4_s2 m c]
  exact varK_of_sums _

theorem out_congr (V : (c : Dev nD) → (b : Ref sig .tc) → Buf (Elt Ideal) ((c : Thread nD τ).loc b)) (c : Dev nD)
    (Y : Mat) (mu var g be : Row)
    (hY : toMat (V c main_v27_0) = Y) (hmu : toRow1 (V c main_v29) = mu) (hvar : toRow1 (V c main_v33) = var)
    (hg : toRow1 (V c main_v18) = g) (hbe : toRow1 (V c main_v19) = be) :
    ((dat2 V c).arrAt 5 cfg2.N : S100000x128.Idx → EReal) = ofMat (bnrelu Y mu var g be) :=
  (val2_5 V c).trans (by rw [hY, hmu, hvar, hg, hbe])

theorem W6_out (c : Dev nD) :
    (W6 (F := Ideal) m c (Proc.devRef .tc main_v34) : S100000x128.Idx → EReal) = kerOut m c :=
  (W6_arr m c 5).trans <| (out_congr (U5 m) c _ _ _ _ _
    ((congrArg toMat ((W5_same m c main_v27_0 (by decide)).trans (W4_y m c))).trans (toMat_ofMat _))
    (W5_mean m c)
    (W5_var m c)
    ((congrArg toRow1 ((W5_kept m c main_v18 (by decide) (by decide)).trans (W3_kept m c main_v18 (by decide) (by decide)))).trans
      (host0_rows (W0 m c)).2.2.2.2.1)
    ((congrArg toRow1 ((W5_kept m c main_v19 (by decide) (by decide)).trans (W3_kept m c main_v19 (by decide) (by decide)))).trans
      (host0_rows (W0 m c)).2.2.2.2.2)).trans (kerOut_eq m c).symm

end Cert.KernelIdeal.Val

end
-- ==== Proof.ValKernelIdeal.Fin.lean ====
import proofs.«125831_j1151051235416_1_alg».proof.Defs
import proofs.«125831_j1151051235416_1_alg».proof.Proof.Gen.KernelIdeal
import proofs.«125831_j1151051235416_1_alg».proof.Proof.Gen.Pre_finite_inputs
import proofs.«125831_j1151051235416_1_alg».proof.Proof.ValKernelIdeal.Agg
import proofs.«125831_j1151051235416_1_alg».proof.Proof.Spec
import Idealize.ShloMosaic.Lib.ReduceAll
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Facts₀ Cert.KernelIdeal.Facts Cert.Spec

theorem isReal_of_abs_lt_inf (x : EReal)
    (e : Ideal.cmp .olt (max x (-x)) (Ideal.ofBits .f32 0x7F800000#32) = 1#1) : IsReal x := by
  have htop : Ideal.ofBits .f32 0x7F800000#32 = ⊤ := by simp [Ideal.ofBits, Ideal.ieee]
  rw [htop] at e
  induction x using EReal.rec with
  | bot => simp [Ideal.cmp] at e
  | coe r => exact ⟨r, rfl⟩
  | top => simp [Ideal.cmp] at e

theorem isReal_of_all {s : Shape} {axes : List (Fin s.rank)} (x : s.Idx → EReal)
    (hb : (Cert.Pre_finite_inputs.S_).BroadcastsInDim s (![] : Fin 0 → Fin s.rank))
    (hr : s.ReducesTo axes Cert.Pre_finite_inputs.S_) (hu : 0 < (Cert.Pre_finite_inputs.S_).numel)
    (e : Host.reduce IntOp.andi
          (cmpf (F := Ideal) .olt (Host.absf (F := Ideal) (φ := .f32) x)
            (broadcastInDim s ![] hb (constant (F := Ideal) Cert.Pre_finite_inputs.S_ .f32 0x7F800000#32)))
          (constantI Cert.Pre_finite_inputs.S_ 1 1#1) hr hu ix0 = 1#1) :
    ∀ i, IsReal (x i) :=
  haveI : Subsingleton (Cert.Pre_finite_inputs.S_).Idx := ⟨fun a b => funext fun d => d.elim0⟩
  fun i => isReal_of_abs_lt_inf (x i) (Host.reduce_andi_all _ _ hr hu ix0 e i)

theorem pre_real (m : (ℓ : Loc nD τ sig) → Buf (Elt Ideal) ℓ) (h : Cert.Pre_KernelIdeal m) (c : Dev nD) :
    (∀ i, IsReal ((m ((c.tc : Thread nD τ).loc main_arg0) : S100000x128.Idx → EReal) i))
    ∧ (∀ i, IsReal ((m ((c.tc : Thread nD τ).loc main_arg1) : S1600000.Idx → EReal) i))
    ∧ (∀ i, IsReal ((m ((c.tc : Thread nD τ).loc main_arg2) : S1x1.Idx → EReal) i))
    ∧ (∀ i, IsReal ((m ((c.tc : Thread nD τ).loc main_arg3) : S128x128.Idx → EReal) i))
    ∧ (∀ i, IsReal ((m ((c.tc : Thread nD τ).loc main_arg4) : S128.Idx → EReal) i))
    ∧ (∀ i, IsReal ((m ((c.tc : Thread nD τ).loc main_arg5) : S128.Idx → EReal) i))
    ∧ (∀ i, IsReal ((m ((c.tc : Thread nD τ).loc main_arg6) : S128.Idx → EReal) i))
    ∧ (∀ i, IsReal ((m ((c.tc : Thread nD τ).loc main_arg7) : S128x128.Idx → EReal) i))
    ∧ (∀ i, IsReal ((m ((c.tc : Thread nD τ).loc main_arg8) : S128.Idx → EReal) i))
    ∧ (∀ i, IsReal ((m ((c.tc : Thread nD τ).loc main_arg9) : S128.Idx → EReal) i))
    ∧ (∀ i, IsReal ((m ((c.tc : Thread nD τ).loc main_arg10) : S128.Idx → EReal) i)) := by
  have h0 := congrFun (h c) ix0
  dsimp only [Cert.Pre_finite_inputs.fn, Cert.Pre_finite_inputs.fn_part1, Cert.Pre_finite_inputs.fn_part2,
    Cert.Pre_finite_inputs.fn_part3] at h0

  obtain ⟨h9, e10⟩ := IntOp.andi_eq_one.1 h0
  obtain ⟨h8, e9⟩ := IntOp.andi_eq_one.1 h9
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨isReal_of_all _ _ _ _ e0, isReal_of_all _ _ _ _ e1, isReal_of_all _ _ _ _ e2, isReal_of_all _ _ _ _ e3,
    isReal_of_all _ _ _ _ e4, isReal_of_all _ _ _ _ e5, isReal_of_all _ _ _ _ e6, isReal_of_all _ _ _ _ e7,
    isReal_of_all _ _ _ _ e8, isReal_of_all _ _ _ _ e9, isReal_of_all _ _ _ _ e10⟩

theorem isReal_scatterAdd {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Host.scatterAdd (F := Ideal) (φ := .f32) d x idx upd i) :=
  (hx i).add (isReal_sum _ _ fun j _ => hu j)

theorem agg_real (v : S100000x128.Idx → EReal) (ew : S1600000.Idx → EReal) (src dst : IVec S1600000 32)
    (hv : ∀ i, IsReal (v i)) (hw : ∀ i, IsReal (ew i)) : ∀ i, IsReal (agg v ew src dst i) := by
  intro i
  unfold agg
  refine isReal_scatterAdd _ _ _ _ (fun i => ?_) (fun j => (hv _).mul (hw _)) i
  show IsReal (Ideal.ofBits .f32 0x00000000#32)
  rw [Ideal.ofBits_zero_f32]; exact IsReal.zero

end Cert.KernelIdeal.Val

end
-- ==== Proof.Ref.Ops.lean ====
import proofs.«125831_j1151051235416_1_alg».proof.Proof.Gen.ReferenceIdeal
import Idealize.ShloMosaic.Lib.Pipeline.Frame

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

-- The column variance of `x`: the mean of the squared deviations from the column mean.
abbrev varOps (x : TRef sig ⟨S100000x128, .f32⟩) (c : TRef sig ⟨S_, .i32⟩) (φ : fn_var.Bufs) : List (HloOp τ sig (Elt F)) :=
  [ TRef.nullary φ.cst (constant S_ .f32 0x00000000#32),
    TRef.binary x φ.cst φ.v0 (fun x v => Host.reduceAdd x v reducesTo_S100000x128_S128_d0 h_S_),
    TRef.unary φ.v0 φ.v1 (broadcastInDim S1x128 ![1] bcast_S128_S1x128_1),
    TRef.nullary φ.cst_0 (constant S_ .f32 0x47C35000#32),
    TRef.unary φ.cst_0 φ.v2 (broadcastInDim S1x128 ![] bcast_S_S1x128),
    TRef.binary φ.v1 φ.v2 φ.v3 Host.divf,
    TRef.unary φ.v3 φ.v4 (broadcastInDim S100000x128 ![0, 1] bcast_S1x128_S100000x128_0_1),
    TRef.binary x φ.v4 φ.v5 subf,
    TRef.binary φ.v5 φ.v5 φ.v6 mulf,
    TRef.unary c φ.v7 (sitofp .f32),
    TRef.nullary φ.cst_1 (constant S_ .f32 0x47C35000#32),
    TRef.binary φ.cst_1 φ.v7 φ.v8 subf,
    TRef.nullary φ.cst_2 (constant S_ .f32 0x00000000#32),
    TRef.binary φ.v6 φ.cst_2 φ.v9 (fun x v => Host.reduceAdd x v reducesTo_S100000x128_S128_d0 h_S_),
    TRef.unary φ.v8 φ.v10 (broadcastInDim S128 ![] bcast_S_S128),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32),
    TRef.unary φ.cst_4 φ.call0.v0 id,
    TRef.unary φ.call0.v0 φ.call0.v1 (broadcastInDim S128 ![] bcast_S_S128),
    TRef.ternary φ.v12 φ.v11 φ.call0.v1 φ.call0.v2 (fun p a b => select (broadcastInDim S128 ![] bcast_S_S128 p) a b) ]

-- The maximum of `x` with zero.
abbrev reluOps (x : TRef sig ⟨S100000x128, .f32⟩) (φ : fn_relu.Bufs) : List (HloOp τ sig (Elt F)) :=
  [ TRef.nullary φ.cst (constant S_ .f32 0x00000000#32),
    TRef.unary φ.cst φ.v0 (broadcastInDim S100000x128 ![] bcast_S_S100000x128),
    TRef.binary x φ.v0 φ.v1 maximumf ]

-- A feature vector as one row, that row under every node; then the rest of the line.
abbrev rowOps (r : TRef sig ⟨S128, .f32⟩) (a : TRef sig ⟨S1x128, .f32⟩) (b : TRef sig ⟨S100000x128, .f32⟩)
    (k : List (HloOp τ sig (Elt F))) : List (HloOp τ sig (Elt F)) :=
  TRef.unary r a (broadcastInDim S1x128 ![1] bcast_S128_S1x128_1) ::
  TRef.unary a b (broadcastInDim S100000x128 ![0, 1] bcast_S1x128_S100000x128_0_1) :: k

-- The aggregation: each edge's source row, scaled by the edge's weight, added into the edge's destination row.
abbrev opsA : List (HloOp τ sig (Elt F)) :=
  [ StableHlo.nullary main_c (constantI S_ 32 0#32),
    StableHlo.unary main_c main_v0 (broadcastInDim S1600000 ![] bcast_S_S1600000),
    StableHlo.binary main_arg11 main_v0 main_v1 (cmpi .slt),
    StableHlo.nullary main_c_0 (constantI S_ 32 100000#32),
    StableHlo.unary main_c_0 main_v2 (broadcastInDim S1600000 ![] bcast_S_S1600000),
    StableHlo.binary main_arg11 main_v2 main_v3 addi,
    StableHlo.ternary main_v1 main_v3 main_arg11 main_v4 select,
    StableHlo.unary main_v4 main_v5 (broadcastInDim S1600000x1 ![0] bcast_S1600000_S1600000x1_0),
    StableHlo.binary main_arg0 main_v5 main_v6 (fun x i => Host.gather gather_S100000x128_S1600000x1_S1600000x128_1_0_n_n_0_1_1128 x i),
    StableHlo.unary main_arg1 main_v7 (broadcastInDim S1600000x1 ![0] bcast_S1600000_S1600000x1_0),
    StableHlo.unary main_v7 main_v8 (broadcastInDim S1600000x128 ![0, 1] bcast_S1600000x1_S1600000x128_0_1),
    StableHlo.binary main_v6 main_v8 main_v9 mulf,
    StableHlo.nullary main_cst (constant S_ .f32 0x00000000#32),
    StableHlo.unary main_cst main_v10 (broadcastInDim S100000x128 ![] bcast_S_S100000x128),
    StableHlo.unary main_arg12 main_v11 (broadcastInDim S1600000x1 ![0] bcast_S1600000_S1600000x1_0),
    StableHlo.ternary main_v10 main_v11 main_v9 main_v12 (fun x i u => Host.scatterAdd scatter_S100000x128_S1600000x1_S1600000x128_1_0_0_1 x i u) ]

-- The self loop and the first affine map.
abbrev opsB : List (HloOp τ sig (Elt F)) :=
  StableHlo.unary main_arg2 main_v13 (broadcastInDim S100000x128 ![0, 1] bcast_S1x1_S100000x128_0_1) ::
  StableHlo.binary main_v13 main_arg0 main_v14 mulf ::
  StableHlo.binary main_v12 main_v14 main_v15 addf ::
  StableHlo.binary main_v15 main_arg3 main_v16 (fun l r => Host.dotGeneral dot_S100000x128_S128x128_S100000x128_1_0_0_1_n_n none l r) ::
  (rowOps (.of main_arg4) (.of main_v17) (.of main_v18) <|
  [StableHlo.binary main_v16 main_v18 main_v19 addf])

-- The first layer's column mean and column variance.
abbrev opsC : List (HloOp τ sig (Elt F)) :=
  StableHlo.nullary main_cst_1 (constant S_ .f32 0x00000000#32) ::
  StableHlo.binary main_v19 main_cst_1 main_v20 (fun x v => Host.reduceAdd x v reducesTo_S100000x128_S128_d0 h_S_) ::
  StableHlo.nullary main_cst_2 (constant S_ .f32 0x47C35000#32) ::
  StableHlo.unary main_cst_2 main_v21 (broadcastInDim S128 ![] bcast_S_S128) ::
  StableHlo.binary main_v20 main_v21 main_v22 Host.divf ::
  StableHlo.nullary main_c_3 (constantI S_ 32 0#32) ::
  varOps (.of main_v19) (.of main_c_3) main_call0

-- The first layer's normalisation and rectifier.
abbrev opsD : List (HloOp τ sig (Elt F)) :=
  rowOps (.of main_v22) (.of main_v24) (.of main_v25) <|
  StableHlo.binary main_v19 main_v25 main_v26 subf ::
  StableHlo.nullary main_cst_4 (constant S_ .f32 0x3727C5AC#32) ::
  StableHlo.unary main_cst_4 main_v27 (broadcastInDim S128 ![] bcast_S_S128) ::
  StableHlo.binary main_v23 main_v27 main_v28 addf ::
  StableHlo.unary main_v28 main_v29 Host.rsqrt ::
  (rowOps (.of main_v29) (.of main_v30) (.of main_v31) <|
  StableHlo.binary main_v26 main_v31 main_v32 mulf ::
  (rowOps (.of main_arg5) (.of main_v33) (.of main_v34) <|
  StableHlo.binary main_v32 main_v34 main_v35 mulf ::
  (rowOps (.of main_arg6) (.of main_v36) (.of main_v37) <|
  StableHlo.binary main_v35 main_v37 main_v38 addf ::
  reluOps (.of main_v38) main_call1)))

-- The second affine map.
abbrev opsE : List (HloOp τ sig (Elt F)) :=
  StableHlo.binary main_v39 main_arg7 main_v40 (fun l r => Host.dotGeneral dot_S100000x128_S128x128_S100000x128_1_0_0_1_n_n none l r) ::
  (rowOps (.of main_arg8) (.of main_v41) (.of main_v42) <|
  [StableHlo.binary main_v40 main_v42 main_v43 addf])

-- The second layer's column mean and column variance.
abbrev opsF : List (HloOp τ sig (Elt F)) :=
  StableHlo.nullary main_cst_5 (constant S_ .f32 0x00000000#32) ::
  StableHlo.binary main_v43 main_cst_5 main_v44 (fun x v => Host.reduceAdd x v reducesTo_S100000x128_S128_d0 h_S_) ::
  StableHlo.nullary main_cst_6 (constant S_ .f32 0x47C35000#32) ::
  StableHlo.unary main_cst_6 main_v45 (broadcastInDim S128 ![] bcast_S_S128) ::
  StableHlo.binary main_v44 main_v45 main_v46 Host.divf ::
  StableHlo.nullary main_c_7 (constantI S_ 32 0#32) ::
  varOps (.of main_v43) (.of main_c_7) main_call2

-- The second layer's mean under every row.
abbrev opsG0 : List (HloOp τ sig (Elt F)) :=
  rowOps (.of main_v46) (.of main_v48) (.of main_v49) []

-- The second layer's normalisation and rectifier.
abbrev opsG1 : List (HloOp τ sig (Elt F)) :=
  StableHlo.binary main_v43 main_v49 main_v50 subf ::
  StableHlo.nullary main_cst_8 (constant S_ .f32 0x3727C5AC#32) ::
  StableHlo.unary main_cst_8 main_v51 (broadcastInDim S128 ![] bcast_S_S128) ::
  StableHlo.binary main_v47 main_v51 main_v52 addf ::
  StableHlo.unary main_v52 main_v53 Host.rsqrt ::
  (rowOps (.of main_v53) (.of main_v54) (.of main_v55) <|
  StableHlo.binary main_v50 main_v55 main_v56 mulf ::
  (rowOps (.of main_arg9) (.of main_v57) (.of main_v58) <|
  StableHlo.binary main_v56 main_v58 main_v59 mulf ::
  (rowOps (.of main_arg10) (.of main_v60) (.of main_v61) <|
  StableHlo.binary main_v59 main_v61 main_v62 addf ::
  reluOps (.of main_v62) main_call3)))

abbrev ops : List (HloOp τ sig (Elt F)) :=
  opsA ++ (opsB ++ (opsC ++ (opsD ++ (opsE ++ (opsF ++ (opsG0 ++ opsG1))))))

-- The program is that line, each call being its function's list: both sides unfold to one sequence.
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

-- A line whose operations write, in order, exactly the arrays of a list leaves every array outside the list as it was.
theorem keep_of_writes {l : List (HloOp τ sig (Elt F))} {W : List (Ref sig .tc)}
    (hW : l.map (·.writes) = W.map fun y => {Proc.devRef (τ := τ) .tc y}) (V : Valuation τ sig (Elt F)) {r : Ref sig .tc}
    (hr : r ∉ W) : after l V (no_index (Proc.devRef .tc r)) = V (Proc.devRef .tc r) :=
  after_of_forall_not_mem l V fun op hop hb => by
    obtain ⟨y, hy, he⟩ := List.mem_map.mp (hW ▸ List.mem_map_of_mem hop)
    exact hr (Proc.devRef_injective _ (Finset.mem_singleton.mp (he ▸ hb)) ▸ hy)

theorem ops_sub : (ops : List (HloOp τ sig (Elt F))).Forall fun op => op.bufs ⊆ tcRefs τ sig := by
  simp only [ops, opsA, opsB, opsC, opsD, opsE, opsF, opsG0, opsG1, varOps, reluOps, rowOps, List.cons_append, List.nil_append, List.Forall,
    nullary_bufs_sub, unary_bufs_sub, binary_bufs_sub, ternary_bufs_sub, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.Ref.Stages.lean ====
import proofs.«125831_j1151051235416_1_alg».proof.ReferenceIdeal
import Idealize.ShloMosaic.PureOps.Ideal

noncomputable section

namespace Cert.ReferenceIdeal.RefRun

open Cert.ReferenceIdeal Cert.ReferenceIdeal.Facts₀ Cert.ReferenceIdeal.Facts Idealize.ShloMosaic

variable [Facts]

abbrev NF := FVec Ideal S100000x128 .f32
abbrev FV := FVec Ideal S128 .f32
abbrev WM := FVec Ideal S128x128 .f32

-- The aggregate plus the one-by-one scalar times the features.
def mixOp (A v : NF) (e : FVec Ideal S1x1 .f32) : NF :=
  addf A (mulf (broadcastInDim S100000x128 ![0, 1] bcast_S1x1_S100000x128_0_1 e) v)

-- A feature vector as one row, that row under every node.
def rowsOp (r : FV) : NF :=
  broadcastInDim S100000x128 ![0, 1] bcast_S1x128_S100000x128_0_1 (broadcastInDim S1x128 ![1] bcast_S128_S1x128_1 r)

-- The product with a weight matrix plus a bias row.
def linOp (X : NF) (W : WM) (b : FV) : NF :=
  addf (Host.dotGeneral dot_S100000x128_S128x128_S100000x128_1_0_0_1_n_n none X W) (rowsOp b)

-- The column sums from zero over the number of rows.
def meanOp (X : NF) : FV :=
  Host.divf (Host.reduceAdd X (constant (F := Ideal) S_ .f32 0x00000000#32) reducesTo_S100000x128_S128_d0 h_S_)
    (broadcastInDim S128 ![] bcast_S_S128 (constant (F := Ideal) S_ .f32 0x47C35000#32))

-- The variance's divisor: the number of rows less an integer zero.
def divisorOp : FVec Ideal S_ .f32 :=
  subf (constant (F := Ideal) S_ .f32 0x47C35000#32) (sitofp .f32 (constantI S_ 32 0#32))

-- The deviations from the column mean.
def devOp (X : NF) : NF :=
  subf X (broadcastInDim S100000x128 ![0, 1] bcast_S1x128_S100000x128_0_1
    (Host.divf (broadcastInDim S1x128 ![1] bcast_S128_S1x128_1
        (Host.reduceAdd X (constant (F := Ideal) S_ .f32 0x00000000#32) reducesTo_S100000x128_S128_d0 h_S_))
      (broadcastInDim S1x128 ![] bcast_S_S1x128 (constant (F := Ideal) S_ .f32 0x47C35000#32))))

-- The column sums of the squared deviations over the divisor where it is positive, a not-a-number elsewhere.
def varOp (X : NF) : FV :=
  select (broadcastInDim S128 ![] bcast_S_S128 (cmpf .ogt divisorOp (constant (F := Ideal) S_ .f32 0x00000000#32)))
    (Host.divf (Host.reduceAdd (mulf (devOp X) (devOp X)) (constant (F := Ideal) S_ .f32 0x00000000#32) reducesTo_S100000x128_S128_d0 h_S_)
      (broadcastInDim S128 ![] bcast_S_S128 divisorOp))
    (broadcastInDim S128 ![] bcast_S_S128 (id (constant (F := Ideal) S_ .f32 0x7FC00000#32)))

-- Centre by a mean row, scale by the reciprocal square root of a variance row plus epsilon and by a gain row, shift, rectify.
def bnreluOp (Y : NF) (mu var g be : FV) : NF :=
  maximumf
    (addf (mulf (mulf (subf Y (rowsOp mu))
        (rowsOp (Host.rsqrt (addf var (broadcastInDim S128 ![] bcast_S_S128 (constant (F := Ideal) S_ .f32 0x3727C5AC#32))))))
      (rowsOp g)) (rowsOp be))
    (broadcastInDim S100000x128 ![] bcast_S_S100000x128 (constant (F := Ideal) S_ .f32 0x00000000#32))

end Cert.ReferenceIdeal.RefRun

end
-- ==== Proof.Ref.SegAB.lean ====
import proofs.«125831_j1151051235416_1_alg».proof.Proof.Ref.Ops
import proofs.«125831_j1151051235416_1_alg».proof.Proof.Ref.Stages

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

abbrev opsA_W : List (Ref sig .tc) := [main_c, main_v0, main_v1, main_c_0, main_v2, main_v3, main_v4, main_v5, main_v6, main_v7, main_v8, main_v9, main_cst, main_v10, main_v11, main_v12]
theorem keepA (W : Valuation τ sig (Elt Ideal)) (r : Ref sig .tc) (h : r ∉ opsA_W) :
    after opsA W (no_index (Proc.devRef .tc r)) = W (Proc.devRef .tc r) := keep_of_writes rfl W h

abbrev opsB_W : List (Ref sig .tc) := [main_v13, main_v14, main_v15, main_v16, main_v17, main_v18, main_v19]
theorem keepB (W : Valuation τ sig (Elt Ideal)) (r : Ref sig .tc) (h : r ∉ opsB_W) :
    after opsB W (no_index (Proc.devRef .tc r)) = W (Proc.devRef .tc r) := keep_of_writes rfl W h

theorem segB_lin (W : Valuation τ sig (Elt Ideal)) :
    after opsB W (no_index (Proc.devRef .tc main_v19)) = linOp (mixOp (W (Proc.devRef .tc main_v12)) (W (Proc.devRef .tc main_arg0)) (W (Proc.devRef .tc main_arg2))) (W (Proc.devRef .tc main_arg3)) (W (Proc.devRef .tc main_arg4)) := by
  after_results_simp
  rfl

end Cert.ReferenceIdeal.RefRun

end
-- ==== Proof.Ref.SegC.lean ====
import proofs.«125831_j1151051235416_1_alg».proof.Proof.Ref.Ops
import proofs.«125831_j1151051235416_1_alg».proof.Proof.Ref.Stages

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

abbrev opsC_W : List (Ref sig .tc) := [main_cst_1, main_v20, main_cst_2, main_v21, main_v22, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v23]
theorem keepC (W : Valuation τ sig (Elt Ideal)) (r : Ref sig .tc) (h : r ∉ opsC_W) :
    after opsC W (no_index (Proc.devRef .tc r)) = W (Proc.devRef .tc r) := keep_of_writes rfl W h

attribute [local irreducible] Host.reduceAdd in
theorem segC_mean (W : Valuation τ sig (Elt Ideal)) :
    after opsC W (no_index (Proc.devRef .tc main_v22)) = meanOp (W (Proc.devRef .tc main_v19)) := by
  after_results_simp
  rfl

attribute [local irreducible] Host.reduceAdd in
theorem segC_var (W : Valuation τ sig (Elt Ideal)) :
    after opsC W (no_index (Proc.devRef .tc main_v23)) = varOp (W (Proc.devRef .tc main_v19)) := by
  after_results_simp
  rfl

end Cert.ReferenceIdeal.RefRun

end
-- ==== Proof.Ref.SegDE.lean ====
import proofs.«125831_j1151051235416_1_alg».proof.Proof.Ref.Ops
import proofs.«125831_j1151051235416_1_alg».proof.Proof.Ref.Stages

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

abbrev opsD_W : List (Ref sig .tc) := [main_v24, main_v25, main_v26, main_cst_4, main_v27, main_v28, main_v29, main_v30, main_v31, main_v32, main_v33, main_v34, main_v35, main_v36, main_v37, main_v38, main_call1_cst, main_call1_v0, main_v39]
theorem keepD (W : Valuation τ sig (Elt Ideal)) (r : Ref sig .tc) (h : r ∉ opsD_W) :
    after opsD W (no_index (Proc.devRef .tc r)) = W (Proc.devRef .tc r) := keep_of_writes rfl W h

abbrev opsE_W : List (Ref sig .tc) := [main_v40, main_v41, main_v42, main_v43]
theorem keepE (W : Valuation τ sig (Elt Ideal)) (r : Ref sig .tc) (h : r ∉ opsE_W) :
    after opsE W (no_index (Proc.devRef .tc r)) = W (Proc.devRef .tc r) := keep_of_writes rfl W h

theorem segD_act (W : Valuation τ sig (Elt Ideal)) :
    after opsD W (no_index (Proc.devRef .tc main_v39)) = bnreluOp (W (Proc.devRef .tc main_v19)) (W (Proc.devRef .tc main_v22)) (W (Proc.devRef .tc main_v23)) (W (Proc.devRef .tc main_arg5)) (W (Proc.devRef .tc main_arg6)) := by
  after_results_simp
  rfl

theorem segE_lin (W : Valuation τ sig (Elt Ideal)) :
    after opsE W (no_index (Proc.devRef .tc main_v43)) = linOp (W (Proc.devRef .tc main_v39)) (W (Proc.devRef .tc main_arg7)) (W (Proc.devRef .tc main_arg8)) := by
  after_results_simp
  rfl

end Cert.ReferenceIdeal.RefRun

end
-- ==== Proof.Ref.SegF.lean ====
import proofs.«125831_j1151051235416_1_alg».proof.Proof.Ref.Ops
import proofs.«125831_j1151051235416_1_alg».proof.Proof.Ref.Stages

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

abbrev opsF_W : List (Ref sig .tc) := [main_cst_5, main_v44, main_cst_6, main_v45, main_v46, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v47]
theorem keepF (W : Valuation τ sig (Elt Ideal)) (r : Ref sig .tc) (h : r ∉ opsF_W) :
    after opsF W (no_index (Proc.devRef .tc r)) = W (Proc.devRef .tc r) := keep_of_writes rfl W h

attribute [local irreducible] Host.reduceAdd in
theorem segF_mean (W : Valuation τ sig (Elt Ideal)) :
    after opsF W (no_index (Proc.devRef .tc main_v46)) = meanOp (W (Proc.devRef .tc main_v43)) := by
  after_results_simp
  rfl

attribute [local irreducible] Host.reduceAdd in
theorem segF_var (W : Valuation τ sig (Elt Ideal)) :
    after opsF W (no_index (Proc.devRef .tc main_v47)) = varOp (W (Proc.devRef .tc main_v43)) := by
  after_results_simp
  rfl

end Cert.ReferenceIdeal.RefRun

end
-- ==== Proof.Ref.SegG.lean ====
import proofs.«125831_j1151051235416_1_alg».proof.Proof.Ref.Ops
import proofs.«125831_j1151051235416_1_alg».proof.Proof.Ref.Stages

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

abbrev opsG0_W : List (Ref sig .tc) := [main_v48, main_v49]
theorem keepG0 (W : Valuation τ sig (Elt Ideal)) (r : Ref sig .tc) (h : r ∉ opsG0_W) :
    after opsG0 W (no_index (Proc.devRef .tc r)) = W (Proc.devRef .tc r) := keep_of_writes rfl W h

abbrev opsG1_W : List (Ref sig .tc) := [main_v50, main_cst_8, main_v51, main_v52, main_v53, main_v54, main_v55, main_v56, main_v57, main_v58, main_v59, main_v60, main_v61, main_v62, main_call3_cst, main_call3_v0, main_v63]
theorem keepG1 (W : Valuation τ sig (Elt Ideal)) (r : Ref sig .tc) (h : r ∉ opsG1_W) :
    after opsG1 W (no_index (Proc.devRef .tc r)) = W (Proc.devRef .tc r) := keep_of_writes rfl W h

theorem segG_out (W : Valuation τ sig (Elt Ideal)) :
    after opsG1 (after opsG0 W) (no_index (Proc.devRef .tc main_v63)) = bnreluOp (W (Proc.devRef .tc main_v43)) (W (Proc.devRef .tc main_v46)) (W (Proc.devRef .tc main_v47)) (W (Proc.devRef .tc main_arg9)) (W (Proc.devRef .tc main_arg10)) := by
  after_results_simp
  rfl

end Cert.ReferenceIdeal.RefRun

end
-- ==== Proof.Ref.Read.lean ====
import proofs.«125831_j1151051235416_1_alg».proof.Proof.Gen.ReferenceIdeal
import proofs.«125831_j1151051235416_1_alg».proof.Proof.Ref.Stages
import proofs.«125831_j1151051235416_1_alg».proof.Proof.Spec
import Idealize.ShloMosaic.PureOps.Ideal.Laws
import Idealize.ShloMosaic.Lib.IdealHost
import Idealize.ShloMosaic.Lib.StackMember
import Idealize.ShloMosaic.Lib.KernelVsHost

noncomputable section

namespace Cert.ReferenceIdeal.RefRun

open Cert.ReferenceIdeal Cert.ReferenceIdeal.Facts₀ Cert.ReferenceIdeal.Facts Idealize.ShloMosaic Idealize.ShloMosaic.ValueIdx
  Cert.Spec

theorem row1_apply (r : FV) (q : Fin 128) : broadcastInDim S1x128 ![1] bcast_S128_S1x128_1 r (ix2 0 q) = r (ix1 q) := by
  unfold broadcastInDim
  exact congrArg r (funext fun a => Fin.ext (by match a with | ⟨0, _⟩ => rfl))

theorem rowsOp_apply (r : FV) (p : Fin 100000) (q : Fin 128) : rowsOp r (ix2 p q) = r (ix1 q) :=
  (broadcastInDim_oneRow_apply _ _ p q).trans (row1_apply r q)

theorem toMat_mixOp (A v : NF) (e : FVec Ideal S1x1 .f32) :
    toMat (mixOp A v e) = mix (toMat A) (toMat v) (fun _ => e (ix2 0 0)) :=
  funext fun p => funext fun q => congrArg (A (ix2 p q) + · * v (ix2 p q)) (by
    unfold broadcastInDim
    exact congrArg e (funext fun a => Fin.ext (by match a with | ⟨0, _⟩ => rfl | ⟨1, _⟩ => rfl)))

-- The product with a weight matrix is the plain matrix product: a sum over the contracted feature.
theorem toMat_linOp (X : NF) (W : WM) (b : FV) : toMat (linOp X W b) = lin (toMat X) (toWt W) (toRowV b) :=
  funext fun p => funext fun q =>
    congrArg₂ (· + ·) (StackMember.dotGeneral_plain_apply none X W p q) (rowsOp_apply b p q)

-- The sum over the node axis from zero is the column sum.
theorem colsum_apply (X : NF) (q : Fin 128) :
    Host.reduceAdd X (constant (F := Ideal) S_ .f32 0x00000000#32) reducesTo_S100000x128_S128_d0 h_S_ (ix1 q)
      = ∑ p : Fin 100000, X (ix2 p q) := by
  rw [hostReduceAdd_apply, Ideal.hostReduceAdd_single reducesTo_S100000x128_S128_d0 (by decide)]
  show Ideal.ofBits .f32 0x00000000#32 + _ = _
  rw [Ideal.ofBits_zero_f32, zero_add]
  exact Finset.sum_congr rfl fun k _ =>
    congrArg X (funext fun a => Fin.ext (by match a with | ⟨0, _⟩ => rfl | ⟨1, _⟩ => rfl))

theorem toRowV_meanOp (X : NF) : toRowV (meanOp X) = mean (toMat X) :=
  funext fun q => congrArg (Ideal.div · nRows) (colsum_apply X q)

theorem nRows_pos : (0 : EReal) < nRows := by
  rw [nRows_eq]; exact EReal.coe_pos.mpr (by norm_num)

-- The variance's divisor is the number of rows: the integer zero converted is zero.
theorem divisorOp_apply (j : S_.Idx) : divisorOp j = nRows := by
  show Ideal.ofBits .f32 0x47C35000#32 - (((0#32 : BitVec 32).toInt : ℝ) : EReal) = nRows
  simp [nRows]

theorem devOp_apply (X : NF) (p : Fin 100000) (q : Fin 128) : devOp X (ix2 p q) = X (ix2 p q) - mean (toMat X) q := by
  unfold devOp
  rw [subf_apply, broadcastInDim_oneRow_apply, hostDivf_apply, row1_apply, colsum_apply]
  rfl

-- The divisor is positive, so the guarded quotient is the quotient: the mean of the squared deviations.
theorem toRowV_varOp (X : NF) : toRowV (varOp X) = varR (toMat X) := by
  funext q
  show varOp X (ix1 q) = _
  unfold varOp
  rw [select_apply]
  have hc : broadcastInDim S128 ![] bcast_S_S128 (cmpf .ogt divisorOp (constant (F := Ideal) S_ .f32 0x00000000#32)) (ix1 q) = 1#1 := by
    rw [broadcastInDim_scalar_apply, cmpf_apply, Ideal.cmpf_def, divisorOp_apply, constant_apply, Ideal.ofBits_zero_f32]
    unfold Ideal.cmp
    simp [nRows_pos]
  rw [hc, select_one, hostDivf_apply, broadcastInDim_scalar_apply, divisorOp_apply, colsum_apply]
  unfold varR colsum Spec.sq
  refine congrArg (Ideal.div · nRows) (Finset.sum_congr rfl fun p _ => ?_)
  rw [mulf_apply, devOp_apply]
  rfl

theorem toMat_bnreluOp (Y : NF) (mu var g be : FV) :
    toMat (bnreluOp Y mu var g be) = bnrelu (toMat Y) (toRowV mu) (toRowV var) (toRowV g) (toRowV be) := by
  funext p q
  show bnreluOp Y mu var g be (ix2 p q) = _
  unfold bnreluOp
  rw [maximumf_apply, addf_apply, mulf_apply, mulf_apply, subf_apply, rowsOp_apply, rowsOp_apply, rowsOp_apply, rowsOp_apply,
    broadcastInDim_scalar_apply, constant_apply, Ideal.ofBits_zero_f32]
  rfl

end Cert.ReferenceIdeal.RefRun

end
-- ==== Proof.Ref.Net.lean ====
import proofs.«125831_j1151051235416_1_alg».proof.Proof.Ref.Read

noncomputable section

namespace Cert.ReferenceIdeal.RefRun

open Cert.ReferenceIdeal Cert.ReferenceIdeal.Facts₀ Cert.ReferenceIdeal.Facts Idealize.ShloMosaic Idealize.ShloMosaic.ValueIdx
  Cert.Spec

-- One layer: the affine map, normalised by its own column mean and variance, scaled, shifted, rectified.
def layerOp (X : NF) (W : WM) (b g be : FV) : NF :=
  bnreluOp (linOp X W b) (meanOp (linOp X W b)) (varOp (linOp X W b)) g be

-- Two layers over the aggregate plus the self loop.
def netOp (A v : NF) (e : FVec Ideal S1x1 .f32) (W1 : WM) (b1 g1 be1 : FV) (W2 : WM) (b2 g2 be2 : FV) : NF :=
  layerOp (layerOp (mixOp A v e) W1 b1 g1 be1) W2 b2 g2 be2

theorem toMat_layerOp (X : NF) (W : WM) (b g be : FV) :
    toMat (layerOp X W b g be) = layerR (toMat X) (toWt W) (toRowV b) (toRowV g) (toRowV be) := by
  unfold layerOp layerR
  rw [toMat_bnreluOp, toRowV_meanOp, toRowV_varOp, toMat_linOp]

theorem toMat_netOp (A v : NF) (e : FVec Ideal S1x1 .f32) (W1 : WM) (b1 g1 be1 : FV) (W2 : WM) (b2 g2 be2 : FV) :
    toMat (netOp A v e W1 b1 g1 be1 W2 b2 g2 be2)
      = netR (toMat A) (toMat v) (fun _ => e (ix2 0 0)) (toWt W1) (toRowV b1) (toRowV g1) (toRowV be1)
          (toWt W2) (toRowV b2) (toRowV g2) (toRowV be2) := by
  unfold netOp netR
  rw [toMat_layerOp, toMat_layerOp, toMat_mixOp]

end Cert.ReferenceIdeal.RefRun

end
-- ==== Proof.Ref.Value.lean ====
import proofs.«125831_j1151051235416_1_alg».proof.Proof.Ref.SegAB
import proofs.«125831_j1151051235416_1_alg».proof.Proof.Ref.SegC
import proofs.«125831_j1151051235416_1_alg».proof.Proof.Ref.SegDE
import proofs.«125831_j1151051235416_1_alg».proof.Proof.Ref.SegF
import proofs.«125831_j1151051235416_1_alg».proof.Proof.Ref.SegG
import proofs.«125831_j1151051235416_1_alg».proof.Proof.Ref.Net

noncomputable section

namespace Cert.ReferenceIdeal.RefValue

open Idealize.ShloMosaic Idealize.ShloMosaic.TcCoe Idealize.ShloMosaic.ValueIdx Idealize.SL.Sem
open Cert.ReferenceIdeal Cert.ReferenceIdeal.Facts₀ Cert.ReferenceIdeal.Facts Cert.Spec

-- The aggregated features: each edge's source row of `v`, scaled by the edge's weight, added into the edge's destination row.
def agg (v : S100000x128.Idx → EReal) (ew : S1600000.Idx → EReal) (src dst : IVec S1600000 32) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal)
      (Host.gather gather_S100000x128_S1600000x1_S1600000x128_1_0_n_n_0_1_1128 v
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

variable (m : (ℓ : Loc nD τ sig) → Buf (Elt Ideal) ℓ)

def refOut (c : Dev nD) : S100000x128.Idx → EReal :=
  ofMat (netR
    (toMat (agg (m ((c.tc : Thread nD τ).loc main_arg0)) (m ((c.tc : Thread nD τ).loc main_arg1))
      (m ((c.tc : Thread nD τ).loc main_arg11)) (m ((c.tc : Thread nD τ).loc main_arg12))))
    (toMat (m ((c.tc : Thread nD τ).loc main_arg0)))
    (fun _ => (m ((c.tc : Thread nD τ).loc main_arg2) : S1x1.Idx → EReal) (ix2 0 0))
    (toWt (m ((c.tc : Thread nD τ).loc main_arg3))) (toRowV (m ((c.tc : Thread nD τ).loc main_arg4)))
    (toRowV (m ((c.tc : Thread nD τ).loc main_arg5))) (toRowV (m ((c.tc : Thread nD τ).loc main_arg6)))
    (toWt (m ((c.tc : Thread nD τ).loc main_arg7))) (toRowV (m ((c.tc : Thread nD τ).loc main_arg8)))
    (toRowV (m ((c.tc : Thread nD τ).loc main_arg9))) (toRowV (m ((c.tc : Thread nD τ).loc main_arg10))))

section Line

open Cert.ReferenceIdeal.RefRun Idealize.ShloMosaic.StableHlo

attribute [local irreducible] Host.gather Host.scatterAdd in
theorem segA_agg (W : Valuation τ sig (Elt Ideal)) :
    after opsA W (no_index (Proc.devRef .tc main_v12)) = agg (W (Proc.devRef .tc main_arg0)) (W (Proc.devRef .tc main_arg1)) (W (Proc.devRef .tc main_arg11)) (W (Proc.devRef .tc main_arg12)) := by
  after_results_simp
  rfl

abbrev Wall : List (Ref sig .tc) := opsA_W ++ opsB_W ++ opsC_W ++ opsD_W ++ opsE_W ++ opsF_W ++ opsG0_W ++ opsG1_W

-- An array that no stretch writes is the same after the whole line.
theorem line_keep (V : Valuation τ sig (Elt Ideal)) (r : Ref sig .tc) (h : r ∉ Wall) :
    after (RefRun.ops (F := Ideal)) V (Proc.devRef .tc r) = V (Proc.devRef .tc r) := by
  simp only [Wall, List.mem_append, not_or] at h
  obtain ⟨⟨⟨⟨⟨⟨⟨hA, hB⟩, hC⟩, hD⟩, hE⟩, hF⟩, hG0⟩, hG1⟩ := h
  simp only [RefRun.ops, after_append]
  rw [keepG1 _ r hG1, keepG0 _ r hG0, keepF _ r hF, keepE _ r hE, keepD _ r hD, keepC _ r hC, keepB _ r hB, keepA _ r hA]

theorem line_out (V : Valuation τ sig (Elt Ideal)) :
    after (RefRun.ops (F := Ideal)) V (Proc.devRef .tc main_v63)
      = netOp (agg (V (Proc.devRef .tc main_arg0)) (V (Proc.devRef .tc main_arg1)) (V (Proc.devRef .tc main_arg11)) (V (Proc.devRef .tc main_arg12)))
          (V (Proc.devRef .tc main_arg0)) (V (Proc.devRef .tc main_arg2)) (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10)) := by
  simp only [RefRun.ops, after_append]
  simp (disch := decide) only [segG_out, segF_mean, segF_var, segE_lin, segD_act, segC_mean, segC_var, segB_lin, segA_agg,
    keepA, keepB, keepC, keepD, keepE, keepF, keepG0, keepG1]
  rfl

end Line

theorem line_refOut (c : Dev nD) :
    StableHlo.after (RefRun.ops (F := Ideal)) (StableHlo.launchContents m c) (Proc.devRef .tc main_v63) = refOut m c := by
  rw [line_out]
  refine (ofMat_toMat _).symm.trans (congrArg ofMat ?_)
  rw [RefRun.toMat_netOp]

theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c =>
    have k : ∀ a : Ref sig .tc, a ∉ Wall → r.2.mem ((c.tc : Thread nD τ).loc a) = m ((c.tc : Thread nD τ).loc a) :=
      fun a ha => (h c a).trans (line_keep _ a ha)
    ⟨(h c main_v63).trans (line_refOut m c), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide)⟩)
    (RefRun.run_main (F := Ideal) m ρ)

end Cert.ReferenceIdeal.RefValue

end
-- ==== Proof.lean ====
import proofs.«125831_j1151051235416_1_alg».proof.Defs
import proofs.«125831_j1151051235416_1_alg».proof.Proof.Gen.Kernel
import proofs.«125831_j1151051235416_1_alg».proof.Proof.Gen.KernelIdeal
import proofs.«125831_j1151051235416_1_alg».proof.Proof.Gen.ReferenceIdeal
import proofs.«125831_j1151051235416_1_alg».proof.Proof.Gen.Pre_finite_inputs
import proofs.«125831_j1151051235416_1_alg».proof.Proof.FrameKernel.Run
import proofs.«125831_j1151051235416_1_alg».proof.Proof.FrameKernelIdeal.Run
import proofs.«125831_j1151051235416_1_alg».proof.Proof.ValKernelIdeal.Chain
import proofs.«125831_j1151051235416_1_alg».proof.Proof.ValKernelIdeal.Fin
import proofs.«125831_j1151051235416_1_alg».proof.Proof.Ref.Value
import proofs.«125831_j1151051235416_1_alg».proof.Proof.Spec
import Idealize.ShloMosaic.Adequacy
import Idealize.ShloMosaic.Init

noncomputable section

namespace Cert.Proof

open Idealize.ShloMosaic Idealize.ShloMosaic.ValueIdx Idealize.SL.Sem Cert.Spec

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run m ρ)

theorem agg_eq : @Cert.ReferenceIdeal.RefValue.agg = @Cert.KernelIdeal.Val.agg := rfl

/-- On real entries the mean of the squares minus the square of the mean is the mean of the squared deviations. -/
theorem algebraic : Cert.algebraic_KernelIdeal_ReferenceIdeal := by
  intro m ρ m' ρ' hpre hagree
  refine ⟨fun c => Cert.KernelIdeal.Val.kerOut m c, ?_, ?_⟩
  · exact (θ_run Cert.KernelIdeal.defs _ _).mono
      (fun r h c => ⟨(h c).1.trans (Cert.KernelIdeal.Val.W6_out m c), (h c).2⟩)
      (Cert.KernelIdeal.Hand.run_out (F := Ideal) m ρ)
  · refine (θ_run Cert.ReferenceIdeal.defs _ _).mono (fun r h c => ⟨(h c).1.trans ?_, (h c).2⟩)
      (Cert.ReferenceIdeal.RefValue.run m' ρ')
    obtain ⟨h0, h1, h2, h3, h4, h5, h6, h7, h8, h9, h10, h11, h12⟩ := hagree c
    obtain ⟨r0, r1, r2, r3, r4, r5, r6, r7, r8, _, _⟩ := Cert.KernelIdeal.Val.pre_real m hpre c
    unfold Cert.ReferenceIdeal.RefValue.refOut Cert.KernelIdeal.Val.kerOut
    rw [h0, h1, h2, h3, h4, h5, h6, h7, h8, h9, h10, h11, h12, agg_eq]
    refine congrArg ofMat (netK_eq_netR _ _ _ _ _ _ _ _ _ _ _ ?_ ?_ ?_ ?_ ?_ ?_ ?_ ?_ ?_).symm
    · exact fun p q => Cert.KernelIdeal.Val.agg_real _ _ _ _ r0 r1 _
    · exact fun p q => r0 _
    · exact fun q => r2 _
    · exact fun k q => r3 _
    · exact fun q => r4 _
    · exact fun q => r5 _
    · exact fun q => r6 _
    · exact fun k q => r7 _
    · exact fun q => r8 _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
